-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S10x4096 : S_.BroadcastsInDim S10x4096 (![] : Fin 0 → Fin S10x4096.rank)
  reducesTo_S10x4096_S_d0_1 : S10x4096.ReducesTo [0, 1] S_
  bcast_S_S4096 : S_.BroadcastsInDim S4096 (![] : Fin 0 → Fin S4096.rank)
  reducesTo_S4096_S_d0 : S4096.ReducesTo [0] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_arg12 : FVec F S10 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S4096 .f32) (main_arg8 : FVec F S4096 .f32) (main_arg9 : FVec F S4096 .f32) (main_arg10 : FVec F S4096 .f32) (main_arg11 : FVec F S10 .f32) (main_arg12 : FVec F S10 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S10x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S10 .f32) (main_arg12 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S10x4096 .f32 := Host.absf main_arg4
  let main_cst_6 : FVec F S_ .f32 := constant S_ .f32 0x7F800000#32
  let main_v20 : FVec F S10x4096 .f32 := broadcastInDim S10x4096 ![] bcast_S_S10x4096 main_cst_6
  let main_v21 : IVec S10x4096 1 := cmpf .olt main_v19 main_v20
  let main_c_7 : IVec S_ 1 := constantI S_ 1 1#1
  let main_v22 : IVec S_ 1 := (fun x v => Host.reduce IntOp.andi x v reducesTo_S10x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x784 .f32) (main_arg1 : FVec F S4096x784 .f32) (main_arg2 : FVec F S4096x4096 .f32) (main_arg3 : FVec F S4096x4096 .f32) (main_arg4 : FVec F S10x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S10 .f32) (main_arg12 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S8192x4096 : Shape := ⟨2, ![8192, 4096]⟩
abbrev S1024x784 : Shape := ⟨2, ![1024, 784]⟩
abbrev S512x784 : Shape := ⟨2, ![512, 784]⟩
abbrev S1024x512 : Shape := ⟨2, ![1024, 512]⟩
abbrev S1x4096 : Shape := ⟨2, ![1, 4096]⟩
abbrev S8192x128 : Shape := ⟨2, ![8192, 128]⟩
abbrev S1x128 : Shape := ⟨2, ![1, 128]⟩
abbrev S128 : Shape := ⟨1, ![128]⟩
abbrev S1024x1024 : Shape := ⟨2, ![1024, 1024]⟩
abbrev S512x1024 : Shape := ⟨2, ![512, 1024]⟩
abbrev S8192x10 : Shape := ⟨2, ![8192, 10]⟩
abbrev S10x1024 : Shape := ⟨2, ![10, 1024]⟩
abbrev S1024x10 : Shape := ⟨2, ![1024, 10]⟩
abbrev S1x10 : Shape := ⟨2, ![1, 10]⟩

abbrev nBuf : Space → Nat
  | .hbm => 29
  | .vmem => 56
  | .smem => 0
  | _ => 0

abbrev bufTy : (tb : Table) → Fin (tcTables nBuf tb) → BufTy
  | .hbm, ⟨0, _⟩ => ⟨S8192x784, .f32⟩
  | .hbm, ⟨1, _⟩ => ⟨S4096x784, .f32⟩
  | .hbm, ⟨2, _⟩ => ⟨S4096x4096, .f32⟩
  | .hbm, ⟨3, _⟩ => ⟨S4096x4096, .f32⟩
  | .hbm, ⟨4, _⟩ => ⟨S10x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S10, .f32⟩
  | .hbm, ⟨12, _⟩ => ⟨S10, .f32⟩
  | .hbm, ⟨13, _⟩ => ⟨S8192x4096, .f32⟩
  | .hbm, ⟨14, _⟩ => ⟨S1x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S1x4096, .f32⟩
  | .hbm, ⟨24, _⟩ => ⟨S8192x4096, .f32⟩
  | .hbm, ⟨25, _⟩ => ⟨S8192x10, .f32⟩
  | .hbm, ⟨26, _⟩ => ⟨S1x10, .f32⟩
  | .hbm, ⟨27, _⟩ => ⟨S1x10, .f32⟩
  | .hbm, ⟨28, _⟩ => ⟨S8192x10, .f32⟩
  | .local _ .vmem, ⟨0, _⟩ => ⟨S1024x784, .f32⟩
  | .local _ .vmem, ⟨1, _⟩ => ⟨S1024x784, .f32⟩
  | .local _ .vmem, ⟨2, _⟩ => ⟨S512x784, .f32⟩
  | .local _ .vmem, ⟨3, _⟩ => ⟨S512x784, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S8192x128, .f32⟩
  | .local _ .vmem, ⟨8, _⟩ => ⟨S8192x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S8192x128, .f32⟩
  | .local _ .vmem, ⟨14, _⟩ => ⟨S8192x128, .f32⟩
  | .local _ .vmem, ⟨15, _⟩ => ⟨S1024x1024, .f32⟩
  | .local _ .vmem, ⟨16, _⟩ => ⟨S1024x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S8192x128, .f32⟩
  | .local _ .vmem, ⟨23, _⟩ => ⟨S8192x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S8192x128, .f32⟩
  | .local _ .vmem, ⟨29, _⟩ => ⟨S8192x128, .f32⟩
  | .local _ .vmem, ⟨30, _⟩ => ⟨S1024x1024, .f32⟩
  | .local _ .vmem, ⟨31, _⟩ => ⟨S1024x1024, .f32⟩
  | .local _ .vmem, ⟨32, _⟩ => ⟨S512x1024, .f32⟩
  | .local _ .vmem, ⟨33, _⟩ => ⟨S512x1024, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S8192x128, .f32⟩
  | .local _ .vmem, ⟨38, _⟩ => ⟨S8192x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S8192x128, .f32⟩
  | .local _ .vmem, ⟨44, _⟩ => ⟨S8192x128, .f32⟩
  | .local _ .vmem, ⟨45, _⟩ => ⟨S1024x1024, .f32⟩
  | .local _ .vmem, ⟨46, _⟩ => ⟨S1024x1024, .f32⟩
  | .local _ .vmem, ⟨47, _⟩ => ⟨S10x1024, .f32⟩
  | .local _ .vmem, ⟨48, _⟩ => ⟨S10x1024, .f32⟩
  | .local _ .vmem, ⟨49, _⟩ => ⟨S1024x10, .f32⟩
  | .local _ .vmem, ⟨50, _⟩ => ⟨S1024x10, .f32⟩
  | .local _ .vmem, ⟨51, _⟩ => ⟨S1024x10, .f32⟩
  | .local _ .vmem, ⟨52, _⟩ => ⟨S8192x10, .f32⟩
  | .local _ .vmem, ⟨53, _⟩ => ⟨S1x10, .f32⟩
  | .local _ .vmem, ⟨54, _⟩ => ⟨S1x10, .f32⟩
  | .local _ .vmem, ⟨55, _⟩ => ⟨S8192x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_scratch0 : Ref sig .tc := ⟨.vmem, 51, rfl⟩
abbrev cc7_stg0_0 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem1_0 : DmaSem sig := 49
abbrev cc7_sem2_0 : DmaSem sig := 50
abbrev cc7_sem3_0 : DmaSem sig := 51

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 8, 4], ![false, false, false]⟩

def k2_cond2 (i : grid2.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![8, 8, 4], ![false, false, false]⟩

def k4_cond2 (i : grid4.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8192x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨3, ![8, 1, 4], ![false, false, false]⟩

def k6_cond2 (i : grid6.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S10x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S8192x10 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S8192x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S512x784_S512x784_0_0 : ∀ a, (![0, 0] : Fin 2 → Nat) a + S512x784.size a ≤ S512x784.size a
  h_S512x784 : 0 < S512x784.numel
  shapeCasts_S4096_S1x4096 : S4096.ShapeCasts S1x4096
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  broadcasts_S1x128_S8192x128 : S1x128.Broadcasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1024_S10x1024_0_0 : ∀ a, (![0, 0] : Fin 2 → Nat) a + S10x1024.size a ≤ S10x1024.size a
  h_S10x1024 : 0 < S10x1024.numel
  shapeCasts_S10_S1x10 : S10.ShapeCasts S1x10
  inb_S8192x10_S8192x10_0_0 : ∀ a, (![0, 0] : Fin 2 → Nat) a + S8192x10.size a ≤ S8192x10.size a
  h_S8192x10 : 0 < S8192x10.numel
  shapeCasts_S8192x10_S8192x10 : S8192x10.ShapeCasts S8192x10
  reduces_S8192x10_S10 : S8192x10.Reduces [0] S10
  broadcasts_S1x10_S8192x10 : S1x10.Broadcasts S8192x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  dot_S1024x784_S512x784_S1024x512_1_1_0_0_n_n_wf : DotDims.WF S1024x784 S512x784 S1024x512 [1] [1] [0] [0] [] []
  dot_S1024x1024_S512x1024_S1024x512_1_1_0_0_n_n_wf : DotDims.WF S1024x1024 S512x1024 S1024x512 [1] [1] [0] [0] [] []
  dot_S1024x1024_S10x1024_S1024x10_1_1_0_0_n_n_wf : DotDims.WF S1024x1024 S10x1024 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .f32 = 32 ∨ (Rect.block (s := S8192x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S4096x784.size a
  hwx0_1 : ∀ i : grid0.Coords, EltTy.bits .f32 = 32 ∨ (Rect.block (s := S4096x784) S512x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x4096.size a
  hwx1_0 : ∀ i : grid1.Coords, EltTy.bits .f32 = 32 ∨ (Rect.block (s := S8192x4096) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x4096.size a
  hwx1_1 : ∀ i : grid1.Coords, EltTy.bits .f32 = 32 ∨ (Rect.block (s := S1x4096) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x4096.size a
  hwx1_3 : ∀ i : grid1.Coords, EltTy.bits .f32 = 32 ∨ (Rect.block (s := S8192x4096) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .f32 = 32 ∨ (Rect.block (s := S8192x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x4096.size a
  hwx2_2 : ∀ i : grid2.Coords, EltTy.bits .f32 = 32 ∨ (Rect.block (s := S8192x4096) S1024x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S8192x4096.size a
  hwx3_0 : ∀ i : grid3.Coords, EltTy.bits .f32 = 32 ∨ (Rect.block (s := S8192x4096) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x4096.size a
  hwx3_1 : ∀ i : grid3.Coords, EltTy.bits .f32 = 32 ∨ (Rect.block (s := S1x4096) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x4096.size a
  hwx3_2 : ∀ i : grid3.Coords, EltTy.bits .f32 = 32 ∨ (Rect.block (s := S1x4096) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S8192x4096.size a
  hwx3_3 : ∀ i : grid3.Coords, EltTy.bits .f32 = 32 ∨ (Rect.block (s := S8192x4096) S8192x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x4096.size a
  hwx4_0 : ∀ i : grid4.Coords, EltTy.bits .f32 = 32 ∨ (Rect.block (s := S8192x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S4096x4096.size a
  hwx4_1 : ∀ i : grid4.Coords, EltTy.bits .f32 = 32 ∨ (Rect.block (s := S4096x4096) S512x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S8192x4096.size a
  hwx4_2 : ∀ i : grid4.Coords, EltTy.bits .f32 = 32 ∨ (Rect.block (s := S8192x4096) S1024x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S8192x4096.size a
  hwx5_0 : ∀ i : grid5.Coords, EltTy.bits .f32 = 32 ∨ (Rect.block (s := S8192x4096) S8192x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x4096.size a
  hwx5_1 : ∀ i : grid5.Coords, EltTy.bits .f32 = 32 ∨ (Rect.block (s := S1x4096) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x4096.size a
  hwx5_2 : ∀ i : grid5.Coords, EltTy.bits .f32 = 32 ∨ (Rect.block (s := S1x4096) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x128.size a ≤ S8192x4096.size a
  hwx5_3 : ∀ i : grid5.Coords, EltTy.bits .f32 = 32 ∨ (Rect.block (s := S8192x4096) S8192x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x4096.size a
  hwx6_0 : ∀ i : grid6.Coords, EltTy.bits .f32 = 32 ∨ (Rect.block (s := S8192x4096) S1024x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10x1024.size a ≤ S10x4096.size a
  hwx6_1 : ∀ i : grid6.Coords, EltTy.bits .f32 = 32 ∨ (Rect.block (s := S10x4096) S10x1024.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x10.size a ≤ S8192x10.size a
  hwx6_2 : ∀ i : grid6.Coords, EltTy.bits .f32 = 32 ∨ (Rect.block (s := S8192x10) S1024x10.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S8192x10.size a ≤ S8192x10.size a
  hwx7_0 : ∀ i : grid7.Coords, EltTy.bits .f32 = 32 ∨ (Rect.block (s := S8192x10) S8192x10.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S1x10.size a ≤ S1x10.size a
  hwx7_1 : ∀ i : grid7.Coords, EltTy.bits .f32 = 32 ∨ (Rect.block (s := S1x10) S1x10.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S8192x10.size a ≤ S8192x10.size a
  hwx7_3 : ∀ i : grid7.Coords, EltTy.bits .f32 = 32 ∨ (Rect.block (s := S8192x10) S8192x10.size (cc7_transform_3 i) (hinb7_3 i)).WholeWords (EltTy.packing .f32)

variable [Facts₀]

def dot_S1024x784_S512x784_S1024x512_1_1_0_0_n_n : DotDims S1024x784 S512x784 S1024x512 where
  lhsContracting := [1]
  rhsContracting := [1]
  lhsNonContracting := [0]
  rhsNonContracting := [0]
  lhsBatch := []
  rhsBatch := []
  wf := dot_S1024x784_S512x784_S1024x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x1024_S10x1024_S1024x10_1_1_0_0_n_n : DotDims S1024x1024 S10x1024 S1024x10 where
  lhsContracting := [1]
  rhsContracting := [1]
  lhsNonContracting := [0]
  rhsNonContracting := [0]
  lhsBatch := []
  rhsBatch := []
  wf := dot_S1024x1024_S10x1024_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v4) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v7) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v8) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v11) S8192x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v11) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S10x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S1024x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v12) S8192x10.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v13) S1x10.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v14) S1x10.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v15) S8192x10.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S_ : Shape := ⟨0, ![]⟩
abbrev S784x4096 : Shape := ⟨2, ![784, 4096]⟩
abbrev S8192x4096 : Shape := ⟨2, ![8192, 4096]⟩
abbrev S1x4096 : Shape := ⟨2, ![1, 4096]⟩
abbrev S4096x10 : Shape := ⟨2, ![4096, 10]⟩
abbrev S8192x10 : Shape := ⟨2, ![8192, 10]⟩
abbrev S1x10 : Shape := ⟨2, ![1, 10]⟩

abbrev nBuf : Space → Nat
  | .hbm => 196
  | .vmem => 0
  | .smem => 0
  | _ => 0

abbrev hbmTy0_0 (i : Nat) : BufTy := match i % 128 with
  | 0 => ⟨S8192x784, .f32⟩
  | 1 => ⟨S4096x784, .f32⟩
  | 2 => ⟨S4096x4096, .f32⟩
  | 3 => ⟨S4096x4096, .f32⟩
  | 4 => ⟨S10x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S10, .f32⟩
  | 12 => ⟨S10, .f32⟩
  | 13 => ⟨S_, .f32⟩
  | 14 => ⟨S4096x784, .f32⟩
  | 15 => ⟨S4096x784, .i1⟩
  | 16 => ⟨S_, .f32⟩
  | 17 => ⟨S_, .f32⟩
  | 18 => ⟨S4096x784, .f32⟩
  | 19 => ⟨S4096x784, .f32⟩
  | 20 => ⟨S4096x784, .f32⟩
  | 21 => ⟨S4096x784, .f32⟩
  | 22 => ⟨S784x4096, .f32⟩
  | 23 => ⟨S8192x4096, .f32⟩
  | 24 => ⟨S_, .f32⟩
  | 25 => ⟨S4096, .f32⟩
  | 26 => ⟨S_, .f32⟩
  | 27 => ⟨S4096, .f32⟩
  | 28 => ⟨S4096, .f32⟩
  | 29 => ⟨S1x4096, .f32⟩
  | 30 => ⟨S8192x4096, .f32⟩
  | 31 => ⟨S8192x4096, .f32⟩
  | 32 => ⟨S8192x4096, .f32⟩
  | 33 => ⟨S_, .f32⟩
  | 34 => ⟨S4096, .f32⟩
  | 35 => ⟨S_, .f32⟩
  | 36 => ⟨S4096, .f32⟩
  | 37 => ⟨S4096, .f32⟩
  | 38 => ⟨S1x4096, .f32⟩
  | 39 => ⟨S8192x4096, .f32⟩
  | 40 => ⟨S8192x4096, .f32⟩
  | 41 => ⟨S_, .f32⟩
  | 42 => ⟨S4096, .f32⟩
  | 43 => ⟨S4096, .f32⟩
  | 44 => ⟨S4096, .f32⟩
  | 45 => ⟨S4096, .f32⟩
  | 46 => ⟨S1x4096, .f32⟩
  | 47 => ⟨S8192x4096, .f32⟩
  | 48 => ⟨S8192x4096, .f32⟩
  | 49 => ⟨S1x4096, .f32⟩
  | 50 => ⟨S8192x4096, .f32⟩
  | 51 => ⟨S8192x4096, .f32⟩
  | 52 => ⟨S_, .f32⟩
  | 53 => ⟨S8192x4096, .f32⟩
  | 54 => ⟨S8192x4096, .i1⟩
  | 55 => ⟨S_, .f32⟩
  | 56 => ⟨S_, .f32⟩
  | 57 => ⟨S8192x4096, .f32⟩
  | 58 => ⟨S8192x4096, .f32⟩
  | 59 => ⟨S8192x4096, .f32⟩
  | 60 => ⟨S8192x4096, .f32⟩
  | 61 => ⟨S_, .f32⟩
  | 62 => ⟨S4096x4096, .f32⟩
  | 63 => ⟨S4096x4096, .i1⟩
  | 64 => ⟨S_, .f32⟩
  | 65 => ⟨S_, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S8192x4096, .f32⟩
  | 72 => ⟨S_, .f32⟩
  | 73 => ⟨S4096, .f32⟩
  | 74 => ⟨S_, .f32⟩
  | 75 => ⟨S4096, .f32⟩
  | 76 => ⟨S4096, .f32⟩
  | 77 => ⟨S1x4096, .f32⟩
  | 78 => ⟨S8192x4096, .f32⟩
  | 79 => ⟨S8192x4096, .f32⟩
  | 80 => ⟨S8192x4096, .f32⟩
  | 81 => ⟨S_, .f32⟩
  | 82 => ⟨S4096, .f32⟩
  | 83 => ⟨S_, .f32⟩
  | 84 => ⟨S4096, .f32⟩
  | 85 => ⟨S4096, .f32⟩
  | 86 => ⟨S1x4096, .f32⟩
  | 87 => ⟨S8192x4096, .f32⟩
  | 88 => ⟨S8192x4096, .f32⟩
  | 89 => ⟨S_, .f32⟩
  | 90 => ⟨S4096, .f32⟩
  | 91 => ⟨S4096, .f32⟩
  | 92 => ⟨S4096, .f32⟩
  | 93 => ⟨S4096, .f32⟩
  | 94 => ⟨S1x4096, .f32⟩
  | 95 => ⟨S8192x4096, .f32⟩
  | 96 => ⟨S8192x4096, .f32⟩
  | 97 => ⟨S1x4096, .f32⟩
  | 98 => ⟨S8192x4096, .f32⟩
  | 99 => ⟨S8192x4096, .f32⟩
  | 100 => ⟨S_, .f32⟩
  | 101 => ⟨S8192x4096, .f32⟩
  | 102 => ⟨S8192x4096, .i1⟩
  | 103 => ⟨S_, .f32⟩
  | 104 => ⟨S_, .f32⟩
  | 105 => ⟨S8192x4096, .f32⟩
  | 106 => ⟨S8192x4096, .f32⟩
  | 107 => ⟨S8192x4096, .f32⟩
  | 108 => ⟨S8192x4096, .f32⟩
  | 109 => ⟨S_, .f32⟩
  | 110 => ⟨S4096x4096, .f32⟩
  | 111 => ⟨S4096x4096, .i1⟩
  | 112 => ⟨S_, .f32⟩
  | 113 => ⟨S_, .f32⟩
  | 114 => ⟨S4096x4096, .f32⟩
  | 115 => ⟨S4096x4096, .f32⟩
  | 116 => ⟨S4096x4096, .f32⟩
  | 117 => ⟨S4096x4096, .f32⟩
  | 118 => ⟨S4096x4096, .f32⟩
  | 119 => ⟨S8192x4096, .f32⟩
  | 120 => ⟨S_, .f32⟩
  | 121 => ⟨S4096, .f32⟩
  | 122 => ⟨S_, .f32⟩
  | 123 => ⟨S4096, .f32⟩
  | 124 => ⟨S4096, .f32⟩
  | 125 => ⟨S1x4096, .f32⟩
  | 126 => ⟨S8192x4096, .f32⟩
  | 127 => ⟨S8192x4096, .f32⟩
  | _ => ⟨S8192x784, .f32⟩

abbrev hbmTy0_1 (i : Nat) : BufTy := match i % 128 with
  | 0 => ⟨S8192x4096, .f32⟩
  | 1 => ⟨S_, .f32⟩
  | 2 => ⟨S4096, .f32⟩
  | 3 => ⟨S_, .f32⟩
  | 4 => ⟨S4096, .f32⟩
  | 5 => ⟨S4096, .f32⟩
  | 6 => ⟨S1x4096, .f32⟩
  | 7 => ⟨S8192x4096, .f32⟩
  | 8 => ⟨S8192x4096, .f32⟩
  | 9 => ⟨S_, .f32⟩
  | 10 => ⟨S4096, .f32⟩
  | 11 => ⟨S4096, .f32⟩
  | 12 => ⟨S4096, .f32⟩
  | 13 => ⟨S4096, .f32⟩
  | 14 => ⟨S1x4096, .f32⟩
  | 15 => ⟨S8192x4096, .f32⟩
  | 16 => ⟨S8192x4096, .f32⟩
  | 17 => ⟨S1x4096, .f32⟩
  | 18 => ⟨S8192x4096, .f32⟩
  | 19 => ⟨S8192x4096, .f32⟩
  | 20 => ⟨S_, .f32⟩
  | 21 => ⟨S8192x4096, .f32⟩
  | 22 => ⟨S8192x4096, .i1⟩
  | 23 => ⟨S_, .f32⟩
  | 24 => ⟨S_, .f32⟩
  | 25 => ⟨S8192x4096, .f32⟩
  | 26 => ⟨S8192x4096, .f32⟩
  | 27 => ⟨S8192x4096, .f32⟩
  | 28 => ⟨S8192x4096, .f32⟩
  | 29 => ⟨S_, .f32⟩
  | 30 => ⟨S10x4096, .f32⟩
  | 31 => ⟨S10x4096, .i1⟩
  | 32 => ⟨S_, .f32⟩
  | 33 => ⟨S_, .f32⟩
  | 34 => ⟨S10x4096, .f32⟩
  | 35 => ⟨S10x4096, .f32⟩
  | 36 => ⟨S10x4096, .f32⟩
  | 37 => ⟨S10x4096, .f32⟩
  | 38 => ⟨S4096x10, .f32⟩
  | 39 => ⟨S8192x10, .f32⟩
  | 40 => ⟨S_, .f32⟩
  | 41 => ⟨S10, .f32⟩
  | 42 => ⟨S_, .f32⟩
  | 43 => ⟨S10, .f32⟩
  | 44 => ⟨S10, .f32⟩
  | 45 => ⟨S1x10, .f32⟩
  | 46 => ⟨S8192x10, .f32⟩
  | 47 => ⟨S8192x10, .f32⟩
  | 48 => ⟨S8192x10, .f32⟩
  | 49 => ⟨S_, .f32⟩
  | 50 => ⟨S10, .f32⟩
  | 51 => ⟨S_, .f32⟩
  | 52 => ⟨S10, .f32⟩
  | 53 => ⟨S10, .f32⟩
  | 54 => ⟨S1x10, .f32⟩
  | 55 => ⟨S8192x10, .f32⟩
  | 56 => ⟨S8192x10, .f32⟩
  | 57 => ⟨S_, .f32⟩
  | 58 => ⟨S10, .f32⟩
  | 59 => ⟨S10, .f32⟩
  | 60 => ⟨S10, .f32⟩
  | 61 => ⟨S10, .f32⟩
  | 62 => ⟨S1x10, .f32⟩
  | 63 => ⟨S8192x10, .f32⟩
  | 64 => ⟨S8192x10, .f32⟩
  | 65 => ⟨S1x10, .f32⟩
  | 66 => ⟨S8192x10, .f32⟩
  | 67 => ⟨S8192x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_cst_3 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_v33 : Ref sig .tc := ⟨.hbm, 62, rfl⟩
abbrev main_v34 : Ref sig .tc := ⟨.hbm, 63, rfl⟩
abbrev main_cst_11 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_13 : Ref sig .tc := ⟨.hbm, 72, rfl⟩
abbrev main_v39 : Ref sig .tc := ⟨.hbm, 73, rfl⟩
abbrev main_cst_14 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_15 : Ref sig .tc := ⟨.hbm, 81, rfl⟩
abbrev main_v46 : Ref sig .tc := ⟨.hbm, 82, rfl⟩
abbrev main_cst_16 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_17 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_cst_20 : Ref sig .tc := ⟨.hbm, 104, rfl⟩
abbrev main_call3_v0 : Ref sig .tc := ⟨.hbm, 105, rfl⟩
abbrev main_call3_v1 : Ref sig .tc := ⟨.hbm, 106, rfl⟩
abbrev main_v64 : Ref sig .tc := ⟨.hbm, 107, rfl⟩
abbrev main_v65 : Ref sig .tc := ⟨.hbm, 108, rfl⟩
abbrev main_cst_21 : Ref sig .tc := ⟨.hbm, 109, rfl⟩
abbrev main_v66 : Ref sig .tc := ⟨.hbm, 110, rfl⟩
abbrev main_v67 : Ref sig .tc := ⟨.hbm, 111, rfl⟩
abbrev main_cst_22 : Ref sig .tc := ⟨.hbm, 112, rfl⟩
abbrev main_cst_23 : Ref sig .tc := ⟨.hbm, 113, rfl⟩
abbrev main_call4_v0 : Ref sig .tc := ⟨.hbm, 114, rfl⟩
abbrev main_call4_v1 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_24 : Ref sig .tc := ⟨.hbm, 120, rfl⟩
abbrev main_v72 : Ref sig .tc := ⟨.hbm, 121, rfl⟩
abbrev main_cst_25 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_26 : Ref sig .tc := ⟨.hbm, 129, rfl⟩
abbrev main_v79 : Ref sig .tc := ⟨.hbm, 130, rfl⟩
abbrev main_cst_27 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_28 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_29 : Ref sig .tc := ⟨.hbm, 148, rfl⟩
abbrev main_v95 : Ref sig .tc := ⟨.hbm, 149, rfl⟩
abbrev main_v96 : Ref sig .tc := ⟨.hbm, 150, rfl⟩
abbrev main_cst_30 : Ref sig .tc := ⟨.hbm, 151, rfl⟩
abbrev main_cst_31 : Ref sig .tc := ⟨.hbm, 152, rfl⟩
abbrev main_call5_v0 : Ref sig .tc := ⟨.hbm, 153, rfl⟩
abbrev main_call5_v1 : Ref sig .tc := ⟨.hbm, 154, rfl⟩
abbrev main_v97 : Ref sig .tc := ⟨.hbm, 155, rfl⟩
abbrev main_v98 : Ref sig .tc := ⟨.hbm, 156, rfl⟩
abbrev main_cst_32 : Ref sig .tc := ⟨.hbm, 157, rfl⟩
abbrev main_v99 : Ref sig .tc := ⟨.hbm, 158, rfl⟩
abbrev main_v100 : Ref sig .tc := ⟨.hbm, 159, rfl⟩
abbrev main_cst_33 : Ref sig .tc := ⟨.hbm, 160, rfl⟩
abbrev main_cst_34 : Ref sig .tc := ⟨.hbm, 161, rfl⟩
abbrev main_call6_v0 : Ref sig .tc := ⟨.hbm, 162, rfl⟩
abbrev main_call6_v1 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_35 : Ref sig .tc := ⟨.hbm, 168, rfl⟩
abbrev main_v105 : Ref sig .tc := ⟨.hbm, 169, rfl⟩
abbrev main_cst_36 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_37 : Ref sig .tc := ⟨.hbm, 177, rfl⟩
abbrev main_v112 : Ref sig .tc := ⟨.hbm, 178, rfl⟩
abbrev main_cst_38 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_39 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩

abbrev nD : Nat := 1
abbrev τ : Topo := Topo.v7x

variable {F : FTy → Type} [FloatOps F]

class Facts₀ : Prop where
  bcast_S_S4096x784 : S_.BroadcastsInDim S4096x784 (![] : Fin 0 → Fin S4096x784.rank)
  transposes_S4096x784_S784x4096_1_0 : S4096x784.Transposes [1, 0] S784x4096
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S10x4096 : S_.BroadcastsInDim S10x4096 (![] : Fin 0 → Fin S10x4096.rank)
  transposes_S10x4096_S4096x10_1_0 : S10x4096.Transposes [1, 0] S4096x10
  reducesTo_S8192x10_S10_d0 : S8192x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x784_S784x4096_S8192x4096_1_0_0_1_n_n_wf : DotDims.WF S8192x784 S784x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x10_S8192x10_1_0_0_1_n_n_wf : DotDims.WF S8192x4096 S4096x10 S8192x10 [1] [0] [0] [1] [] []

variable [Facts₀]

def dot_S8192x784_S784x4096_S8192x4096_1_0_0_1_n_n : DotDims S8192x784 S784x4096 S8192x4096 where
  lhsContracting := [1]
  rhsContracting := [0]
  lhsNonContracting := [0]
  rhsNonContracting := [1]
  lhsBatch := []
  rhsBatch := []
  wf := dot_S8192x784_S784x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x10_S8192x10_1_0_0_1_n_n : DotDims S8192x4096 S4096x10 S8192x10 where
  lhsContracting := [1]
  rhsContracting := [0]
  lhsNonContracting := [0]
  rhsNonContracting := [1]
  lhsBatch := []
  rhsBatch := []
  wf := dot_S8192x4096_S4096x10_S8192x10_1_0_0_1_n_n_wf

class Facts : Prop extends Facts₀ where

variable [Facts]
-- ==== Proof.Whole.lean ====
import Idealize.ShloMosaic.Lib.Pipeline.Value
import Idealize.ShloMosaic.Lib.Pipeline.FrameBody

namespace Cert

open Idealize.ShloMosaic

theorem zz : (![0, 0] : Fin 2 → Nat) = fun _ => 0 := funext (by decide)

/-- After stores of which the last covers the whole shape, reading the contents, or loading the whole shape, gives that store's value. -/
theorem store_whole {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a)
    (w : S.Idx → Val e) (L : List (View.Piece Val S e)) :
    (∀ f, v.read Val (v.writes Val f (⟨Rect.unit off S.size inb, w⟩ :: L)) = w)
      ∧ v.readCov (⟨Rect.unit off S.size inb, w⟩ :: L) (Rect.unit off S.size inb).toLoadRect = w := by
  have hc : ∀ y, ∃ p ∈ (⟨Rect.unit off S.size inb, w⟩ : View.Piece Val S e) :: L, y ∈ p.1.set :=
    fun y => ⟨_, List.mem_cons_self .., View.mem_set_unit_zero h inb y⟩
  simp only [View.read_writes_eq_canon _ _ _ hc, View.readCov_eq_canon_ld _ _ _ hc, View.canon_cons_unit_zero h,
    View.ld_unit_zero h, implies_true, and_self]

end Cert
-- ==== Proof.KB.Mm0.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import proofs.«147723_j3221225472529_1_alg».proof.Proof.Whole
import Idealize.ShloMosaic.Lib.Pipeline.TableIdle

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scr0 : Memref sig .tc .vmem S1024x512 .f32 := Memref.whole cc0_scratch0

/-- The body's two tests on the reduction coordinate. -/
abbrev isFirst0 (i : grid0.Coords) : Prop :=
  (Scalar.cmpi .ne (Scalar.extui (Scalar.cmpi .eq (BitVec.ofNat 32 (i 2).val) 0#32)) 0#32) = 1#1
abbrev isLast0 (i : grid0.Coords) : Prop := k0_cond2 i = 1#1

/-- One accumulation step: the accumulator (zero on a first step) plus the product of the activation block with the signs of the weight block. -/
def accStep0 (i : grid0.Coords) (x : Vec F S1024x784 .f32) (w : Vec F S512x784 .f32) (a : Vec F S1024x512 .f32) : Vec F S1024x512 .f32 :=
  k0_pay2 x w (if isFirst0 i then k0_pay1 else a)

set_option maxHeartbeats 4000000 in
/-- Whatever its two tests say, the body leaves the accumulator one step further, and the output block at it exactly on a last step. -/
theorem run0 (c : Dev nD) (E : Set ℕ) (i : grid0.Coords)
    (arg3 : Memref sig .tc .vmem S1024x784 .f32) (harg3 : arg3.IsWhole) (arg4 : Memref sig .tc .vmem S512x784 .f32) (harg4 : arg4.IsWhole)
    (arg5 : Memref sig .tc .vmem S1024x512 .f32) (harg5 : arg5.IsWhole) (arg6 : Memref sig .tc .vmem S1024x512 .f32) (harg6 : arg6.IsWhole)
    (x : Vec F S1024x784 .f32) (w : Vec F S512x784 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast0 i then accStep0 i x w a else o)
            ∗ owns (c : Thread nD τ) arg6 fullShare (accStep0 i x w a)) -∗ K ⟨⟩))
      ⊢ wp frame (wpE (defs₀ (F := F)) Variants.none c none) E (cc0__matmul_sign_kernel i arg3 harg3 arg4 harg4 arg5 harg5 arg6 harg6) K := by
  rw [cc0__matmul_sign_kernel_eq_skeleton, owns_eq_rep (c : Thread nD τ) arg3, owns_eq_rep (c : Thread nD τ) arg4]
  unfold accStep0 owns cc0__matmul_sign_kernel_skel
  iintro ⟨Hx, Hw, ⟨%fo, %ho, Ho⟩, ⟨%fa, %ha, Ha⟩, Hk⟩
  subst ho; subst ha
  by_cases hf : isFirst0 i <;> by_cases hl : isLast0 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x784) zz,
          View.ld_unit_zero (S := S512x784) zz, View.ld_unit_zero (S := S1024x512) zz])))

theorem first_iff0 : ∀ t : Fin cfg0.N, isFirst0 (grid0.coords t) ↔ t.val % 1 = 0 := by decide +kernel
theorem sched0 : ∀ t : Fin cfg0.N, if isLast0 (grid0.coords t) then cfg0.idle 2 (grid0.coords t) = false
    else cfg0.idle 2 (grid0.coords t) = true ∧ (cfg0.win 2).flush t = false := by decide +kernel

/-- The accumulator after point `n`, by recursion on the point: one step from what the point before left, from zero at the first. -/
def accAt0 (c : Dev nD) : (n : ℕ) → n < cfg0.N → Vec F S1024x512 .f32
  | 0, h => accStep0 (grid0.coords ⟨0, h⟩) (iblk0 V c 0 ⟨0, h⟩) (iblk0 V c 1 ⟨0, h⟩) k0_pay1
  | n + 1, h => accStep0 (grid0.coords ⟨n + 1, h⟩) (iblk0 V c 0 ⟨n + 1, h⟩) (iblk0 V c 1 ⟨n + 1, h⟩) (accAt0 c n (Nat.lt_of_succ_lt h))

/-- The first point is a first step, so there the step does not read its start. -/
theorem accStep0_eq (c : Dev nD) (t : Fin cfg0.N) (a : Vec F S1024x512 .f32)
    (ha : ∀ h : t.val ≠ 0, a = accAt0 V c (t.val - 1) (by omega)) :
    accStep0 (grid0.coords t) (iblk0 V c 0 t) (iblk0 V c 1 t) a = accAt0 V c t.val t.isLt := by
  obtain ⟨n, hn⟩ := t
  cases n with
  | zero => unfold accAt0 accStep0; simp only [if_pos ((first_iff0 ⟨0, hn⟩).mpr (Nat.zero_mod _))]
  | succ n => rw [ha (Nat.succ_ne_zero n)]; rfl

theorem PhiA0_eq (c : Dev nD) :
    (Pipeline.ΦA spec0 c : sProp 𝕄)
      = iprop(iprop((∃ d, owns (c : Thread nD τ) scr0 fullShare d)
          ∗ Pipeline.scopedRestBut spec0 c [cc0_scratch0]) ∗ (∃ r, prngReg c r)) := by
  unfold Pipeline.ΦA; rw [scopedRest0_split]; simp only [scr0, owns_whole]; try rfl

/-- The region's proof data; between points the accumulator is at what the point before left, at anything before the first. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := iprop(∃ a, ⌜∀ h : t.val ≠ 0, a = accAt0 V c (t.val - 1) (by omega)⌝ ∗ owns (c : Thread nD τ) scr0 fullShare a
    ∗ Pipeline.scopedRestBut spec0 c [cc0_scratch0] ∗ (∃ r, prngReg c r))
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = accAt0 V c t.val t.isLt := rfl

theorem before0 (c : Dev nD) (t : Fin cfg0.N) :
    (∀ d, (dat0 V c).before 0 t d = iblk0 V c 0 t) ∧ ∀ d, (dat0 V c).before 1 t d = iblk0 V c 1 t := by
  constructor <;> exact fun d =>
    ((dat0 V c).before_in_eq_fetched _ rfl (fun _ => rfl) (fun _ _ _ => rfl) (fun _ => rfl) t d).trans rfl

/-- The output block is stored exactly on the last steps. -/
theorem leaves0 (c : Dev nD) (t : Fin cfg0.N) (d) :
    owns (c : Thread nD τ) (st0_2 t) fullShare (if isLast0 (grid0.coords t) then accAt0 V c t.val t.isLt else (dat0 V c).before 2 t d)
      ⊢ (dat0 V c).leavesExact 2 t := by
  have h := sched0 t
  by_cases hl : isLast0 (grid0.coords t)
  · rw [if_pos hl] at h ⊢; unfold Dat.leavesExact; rw [h]; exact .rfl
  · rw [if_neg hl] at h ⊢; rw [Dat.leavesExact_idle _ 2 t h.1 h.2]; iintro H; iexists _; iexact H

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [(before0 V c t).1, (before0 V c t).2]
  dsimp only [dat0]
  iintro ⟨⟨%a, %ha, Ha, Hr, Hg⟩, Hd, ⟨%da, Hx⟩, ⟨%db, Hw⟩, ⟨%dc, Ho⟩⟩
  iapply (run0 c Set.univ _ _ _ _ _ _ _ _ _ (iblk0 V c 0 t) (iblk0 V c 1 t) _ a _)
  iframe Hx Hw Ho Ha
  iintro ⟨Hx, Hw, Ho, Ha⟩
  rw [accStep0_eq V c t a ha]
  isplitl [Ha Hr Hg]
  · iexists accAt0 V c t.val t.isLt; iframe Ha Hr Hg; ipureintro; exact fun _ => rfl
  isplitl [Hd]; · iexact Hd
  isplitl [Hx]; · iexact Hx
  isplitl [Hw]; · iexact Hw
  iapply leaves0 V c t dc; iexact Ho

theorem hin0 (c : Dev nD) : Pipeline.ΦA spec0 c ⊢ (dat0 V c).Φ 0 := by
  rw [PhiA0_eq]; dsimp only [dat0]
  iintro ⟨⟨⟨%a, Ha⟩, Hr⟩, Hg⟩
  iexists a; iframe Ha Hr Hg; ipureintro; exact fun h => absurd rfl h

theorem hout0 (c : Dev nD) : (dat0 V c).Φ (Fin.last cfg0.N) ⊢ Pipeline.ΦA spec0 c := by
  rw [PhiA0_eq]; dsimp only [dat0]
  iintro ⟨%a, -, Ha, Hr, Hg⟩
  iframe Hr Hg; iexists a; iexact Ha

end Cert.Kernel.Fr

end
-- ==== Proof.KB.Bn1.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import Idealize.ShloMosaic.Lib.Pipeline.FrameBody
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]
  (V : (c : Dev nD) → (b : Ref sig .tc) → Buf (Elt F) ((c : Thread nD τ).loc b))

/-- Operand `w`'s block at grid point `t`, of the arrays as they are when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBlk1 : Rect S8192x128 := Rect.unit (s := S8192x128) ![0, 0] S8192x128.size inb_S8192x128_S8192x128_0_0
abbrev rRow1 : Rect S1x128 := Rect.unit (s := S1x128) ![0, 0] S1x128.size inb_S1x128_S1x128_0_0

/-- The body's one store, over the whole output block, of the normalised input blocks. -/
def out1_3 (x : Vec F S8192x128 .f32) (y z : Vec F S1x128 .f32) : Vec F S8192x128 .f32 :=
  View.canon [⟨rBlk1, k1_pay1 (View.ld x rBlk1) (View.ld y rRow1) (View.ld z rRow1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

/-- The body reads its three input blocks and leaves them as they are; its one store covers the output block. -/
theorem body_obligation1 (c : Dev nD) : BodyObligation (dat1 (F := F) V c) (defs₀ (F := F)) Variants.none () Set.univ := fun t => by
  have ha d : (dat1 V c).before 0 t d = iblk1 V c 0 t := (dat1 V c).before_fetched 0 t (fetch1_0 t) d
  have hb d : (dat1 V c).before 1 t d = iblk1 V c 1 t := (dat1 V c).before_fetched 1 t (fetch1_1 t) d
  have hc d : (dat1 V c).before 2 t d = iblk1 V c 2 t := (dat1 V c).before_fetched 2 t (fetch1_2 t) d
  rw [bigSep_W1, bigSep_W1]
  simp only [ha, hb, hc]
  dsimp only [dat1]
  generalize iblk1 V c 0 t = x, iblk1 V c 1 t = y, iblk1 V c 2 t = z
  show _ ⊢ wp _ _ _ (bodyAt1 t) _
  simp only [bodyAt1, cc1__bn_kernel_eq_skeleton]
  unfold cc1__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.Kernel.Fr

end
-- ==== Proof.KB.Mm2.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import proofs.«147723_j3221225472529_1_alg».proof.Proof.Whole
import Idealize.ShloMosaic.Lib.Pipeline.TableIdle

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S1024x512 .f32 := Memref.whole cc2_scratch0

/-- The body's two tests on the reduction coordinate. -/
abbrev isFirst2 (i : grid2.Coords) : Prop :=
  (Scalar.cmpi .ne (Scalar.extui (Scalar.cmpi .eq (BitVec.ofNat 32 (i 2).val) 0#32)) 0#32) = 1#1
abbrev isLast2 (i : grid2.Coords) : Prop := k2_cond2 i = 1#1

/-- One accumulation step: the accumulator (zero on a first step) plus the product of the activation block with the signs of the weight block. -/
def accStep2 (i : grid2.Coords) (x : Vec F S1024x1024 .f32) (w : Vec F S512x1024 .f32) (a : Vec F S1024x512 .f32) : Vec F S1024x512 .f32 :=
  k2_pay2 x w (if isFirst2 i then k2_pay1 else a)

set_option maxHeartbeats 4000000 in
/-- Whatever its two tests say, the body leaves the accumulator one step further, and the output block at it exactly on a last step. -/
theorem run2 (c : Dev nD) (E : Set ℕ) (i : grid2.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (x : Vec F S1024x1024 .f32) (w : Vec F S512x1024 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast2 i then accStep2 i x w a else o)
            ∗ owns (c : Thread nD τ) arg6 fullShare (accStep2 i x w a)) -∗ K ⟨⟩))
      ⊢ wp frame (wpE (defs₀ (F := F)) Variants.none c none) E (cc2__matmul_sign_kernel i arg3 harg3 arg4 harg4 arg5 harg5 arg6 harg6) K := by
  rw [cc2__matmul_sign_kernel_eq_skeleton, owns_eq_rep (c : Thread nD τ) arg3, owns_eq_rep (c : Thread nD τ) arg4]
  unfold accStep2 owns cc2__matmul_sign_kernel_skel
  iintro ⟨Hx, Hw, ⟨%fo, %ho, Ho⟩, ⟨%fa, %ha, Ha⟩, Hk⟩
  subst ho; subst ha
  by_cases hf : isFirst2 i <;> by_cases hl : isLast2 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x1024) zz,
          View.ld_unit_zero (S := S512x1024) zz, View.ld_unit_zero (S := S1024x512) zz])))

theorem first_iff2 : ∀ t : Fin cfg2.N, isFirst2 (grid2.coords t) ↔ t.val % 4 = 0 := by decide +kernel
theorem sched2 : ∀ t : Fin cfg2.N, if isLast2 (grid2.coords t) then cfg2.idle 2 (grid2.coords t) = false
    else cfg2.idle 2 (grid2.coords t) = true ∧ (cfg2.win 2).flush t = false := by decide +kernel

/-- The accumulator after point `n`, by recursion on the point: one step from what the point before left, from zero at the first. -/
def accAt2 (c : Dev nD) : (n : ℕ) → n < cfg2.N → Vec F S1024x512 .f32
  | 0, h => accStep2 (grid2.coords ⟨0, h⟩) (iblk2 V c 0 ⟨0, h⟩) (iblk2 V c 1 ⟨0, h⟩) k2_pay1
  | n + 1, h => accStep2 (grid2.coords ⟨n + 1, h⟩) (iblk2 V c 0 ⟨n + 1, h⟩) (iblk2 V c 1 ⟨n + 1, h⟩) (accAt2 c n (Nat.lt_of_succ_lt h))

/-- The first point is a first step, so there the step does not read its start. -/
theorem accStep2_eq (c : Dev nD) (t : Fin cfg2.N) (a : Vec F S1024x512 .f32)
    (ha : ∀ h : t.val ≠ 0, a = accAt2 V c (t.val - 1) (by omega)) :
    accStep2 (grid2.coords t) (iblk2 V c 0 t) (iblk2 V c 1 t) a = accAt2 V c t.val t.isLt := by
  obtain ⟨n, hn⟩ := t
  cases n with
  | zero => unfold accAt2 accStep2; simp only [if_pos ((first_iff2 ⟨0, hn⟩).mpr (Nat.zero_mod _))]
  | succ n => rw [ha (Nat.succ_ne_zero n)]; rfl

theorem PhiA2_eq (c : Dev nD) :
    (Pipeline.ΦA spec2 c : sProp 𝕄)
      = iprop(iprop((∃ d, owns (c : Thread nD τ) scr2 fullShare d)
          ∗ Pipeline.scopedRestBut spec2 c [cc2_scratch0]) ∗ (∃ r, prngReg c r)) := by
  unfold Pipeline.ΦA; rw [scopedRest2_split]; simp only [scr2, owns_whole]; try rfl

/-- The region's proof data; between points the accumulator is at what the point before left, at anything before the first. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := iprop(∃ a, ⌜∀ h : t.val ≠ 0, a = accAt2 V c (t.val - 1) (by omega)⌝ ∗ owns (c : Thread nD τ) scr2 fullShare a
    ∗ Pipeline.scopedRestBut spec2 c [cc2_scratch0] ∗ (∃ r, prngReg c r))
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = accAt2 V c t.val t.isLt := rfl

theorem before2 (c : Dev nD) (t : Fin cfg2.N) :
    (∀ d, (dat2 V c).before 0 t d = iblk2 V c 0 t) ∧ ∀ d, (dat2 V c).before 1 t d = iblk2 V c 1 t := by
  constructor <;> exact fun d =>
    ((dat2 V c).before_in_eq_fetched _ rfl (fun _ => rfl) (fun _ _ _ => rfl) (fun _ => rfl) t d).trans rfl

/-- The output block is stored exactly on the last steps. -/
theorem leaves2 (c : Dev nD) (t : Fin cfg2.N) (d) :
    owns (c : Thread nD τ) (st2_2 t) fullShare (if isLast2 (grid2.coords t) then accAt2 V c t.val t.isLt else (dat2 V c).before 2 t d)
      ⊢ (dat2 V c).leavesExact 2 t := by
  have h := sched2 t
  by_cases hl : isLast2 (grid2.coords t)
  · rw [if_pos hl] at h ⊢; unfold Dat.leavesExact; rw [h]; exact .rfl
  · rw [if_neg hl] at h ⊢; rw [Dat.leavesExact_idle _ 2 t h.1 h.2]; iintro H; iexists _; iexact H

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [(before2 V c t).1, (before2 V c t).2]
  dsimp only [dat2]
  iintro ⟨⟨%a, %ha, Ha, Hr, Hg⟩, Hd, ⟨%da, Hx⟩, ⟨%db, Hw⟩, ⟨%dc, Ho⟩⟩
  iapply (run2 c Set.univ _ _ _ _ _ _ _ _ _ (iblk2 V c 0 t) (iblk2 V c 1 t) _ a _)
  iframe Hx Hw Ho Ha
  iintro ⟨Hx, Hw, Ho, Ha⟩
  rw [accStep2_eq V c t a ha]
  isplitl [Ha Hr Hg]
  · iexists accAt2 V c t.val t.isLt; iframe Ha Hr Hg; ipureintro; exact fun _ => rfl
  isplitl [Hd]; · iexact Hd
  isplitl [Hx]; · iexact Hx
  isplitl [Hw]; · iexact Hw
  iapply leaves2 V c t dc; iexact Ho

theorem hin2 (c : Dev nD) : Pipeline.ΦA spec2 c ⊢ (dat2 V c).Φ 0 := by
  rw [PhiA2_eq]; dsimp only [dat2]
  iintro ⟨⟨⟨%a, Ha⟩, Hr⟩, Hg⟩
  iexists a; iframe Ha Hr Hg; ipureintro; exact fun h => absurd rfl h

theorem hout2 (c : Dev nD) : (dat2 V c).Φ (Fin.last cfg2.N) ⊢ Pipeline.ΦA spec2 c := by
  rw [PhiA2_eq]; dsimp only [dat2]
  iintro ⟨%a, -, Ha, Hr, Hg⟩
  iframe Hr Hg; iexists a; iexact Ha

end Cert.Kernel.Fr

end
-- ==== Proof.KB.Bn3.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import Idealize.ShloMosaic.Lib.Pipeline.FrameBody
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]
  (V : (c : Dev nD) → (b : Ref sig .tc) → Buf (Elt F) ((c : Thread nD τ).loc b))

/-- Operand `w`'s block at grid point `t`, of the arrays as they are when the region starts. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBlk3 : Rect S8192x128 := Rect.unit (s := S8192x128) ![0, 0] S8192x128.size inb_S8192x128_S8192x128_0_0
abbrev rRow3 : Rect S1x128 := Rect.unit (s := S1x128) ![0, 0] S1x128.size inb_S1x128_S1x128_0_0

/-- The body's one store, over the whole output block, of the normalised input blocks. -/
def out3_3 (x : Vec F S8192x128 .f32) (y z : Vec F S1x128 .f32) : Vec F S8192x128 .f32 :=
  View.canon [⟨rBlk3, k3_pay1 (View.ld x rBlk3) (View.ld y rRow3) (View.ld z rRow3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

/-- The body reads its three input blocks and leaves them as they are; its one store covers the output block. -/
theorem body_obligation3 (c : Dev nD) : BodyObligation (dat3 (F := F) V c) (defs₀ (F := F)) Variants.none () Set.univ := fun t => by
  have ha d : (dat3 V c).before 0 t d = iblk3 V c 0 t := (dat3 V c).before_fetched 0 t (fetch3_0 t) d
  have hb d : (dat3 V c).before 1 t d = iblk3 V c 1 t := (dat3 V c).before_fetched 1 t (fetch3_1 t) d
  have hc d : (dat3 V c).before 2 t d = iblk3 V c 2 t := (dat3 V c).before_fetched 2 t (fetch3_2 t) d
  rw [bigSep_W3, bigSep_W3]
  simp only [ha, hb, hc]
  dsimp only [dat3]
  generalize iblk3 V c 0 t = x, iblk3 V c 1 t = y, iblk3 V c 2 t = z
  show _ ⊢ wp _ _ _ (bodyAt3 t) _
  simp only [bodyAt3, cc3__bn_kernel_eq_skeleton]
  unfold cc3__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.Kernel.Fr

end
-- ==== Proof.KB.Mm4.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import proofs.«147723_j3221225472529_1_alg».proof.Proof.Whole
import Idealize.ShloMosaic.Lib.Pipeline.TableIdle

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4 : Memref sig .tc .vmem S1024x512 .f32 := Memref.whole cc4_scratch0

/-- The body's two tests on the reduction coordinate. -/
abbrev isFirst4 (i : grid4.Coords) : Prop :=
  (Scalar.cmpi .ne (Scalar.extui (Scalar.cmpi .eq (BitVec.ofNat 32 (i 2).val) 0#32)) 0#32) = 1#1
abbrev isLast4 (i : grid4.Coords) : Prop := k4_cond2 i = 1#1

/-- One accumulation step: the accumulator (zero on a first step) plus the product of the activation block with the signs of the weight block. -/
def accStep4 (i : grid4.Coords) (x : Vec F S1024x1024 .f32) (w : Vec F S512x1024 .f32) (a : Vec F S1024x512 .f32) : Vec F S1024x512 .f32 :=
  k4_pay2 x w (if isFirst4 i then k4_pay1 else a)

set_option maxHeartbeats 4000000 in
/-- Whatever its two tests say, the body leaves the accumulator one step further, and the output block at it exactly on a last step. -/
theorem run4 (c : Dev nD) (E : Set ℕ) (i : grid4.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (x : Vec F S1024x1024 .f32) (w : Vec F S512x1024 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast4 i then accStep4 i x w a else o)
            ∗ owns (c : Thread nD τ) arg6 fullShare (accStep4 i x w a)) -∗ K ⟨⟩))
      ⊢ wp frame (wpE (defs₀ (F := F)) Variants.none c none) E (cc4__matmul_sign_kernel i arg3 harg3 arg4 harg4 arg5 harg5 arg6 harg6) K := by
  rw [cc4__matmul_sign_kernel_eq_skeleton, owns_eq_rep (c : Thread nD τ) arg3, owns_eq_rep (c : Thread nD τ) arg4]
  unfold accStep4 owns cc4__matmul_sign_kernel_skel
  iintro ⟨Hx, Hw, ⟨%fo, %ho, Ho⟩, ⟨%fa, %ha, Ha⟩, Hk⟩
  subst ho; subst ha
  by_cases hf : isFirst4 i <;> by_cases hl : isLast4 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x1024) zz,
          View.ld_unit_zero (S := S512x1024) zz, View.ld_unit_zero (S := S1024x512) zz])))

theorem first_iff4 : ∀ t : Fin cfg4.N, isFirst4 (grid4.coords t) ↔ t.val % 4 = 0 := by decide +kernel
theorem sched4 : ∀ t : Fin cfg4.N, if isLast4 (grid4.coords t) then cfg4.idle 2 (grid4.coords t) = false
    else cfg4.idle 2 (grid4.coords t) = true ∧ (cfg4.win 2).flush t = false := by decide +kernel

/-- The accumulator after point `n`, by recursion on the point: one step from what the point before left, from zero at the first. -/
def accAt4 (c : Dev nD) : (n : ℕ) → n < cfg4.N → Vec F S1024x512 .f32
  | 0, h => accStep4 (grid4.coords ⟨0, h⟩) (iblk4 V c 0 ⟨0, h⟩) (iblk4 V c 1 ⟨0, h⟩) k4_pay1
  | n + 1, h => accStep4 (grid4.coords ⟨n + 1, h⟩) (iblk4 V c 0 ⟨n + 1, h⟩) (iblk4 V c 1 ⟨n + 1, h⟩) (accAt4 c n (Nat.lt_of_succ_lt h))

/-- The first point is a first step, so there the step does not read its start. -/
theorem accStep4_eq (c : Dev nD) (t : Fin cfg4.N) (a : Vec F S1024x512 .f32)
    (ha : ∀ h : t.val ≠ 0, a = accAt4 V c (t.val - 1) (by omega)) :
    accStep4 (grid4.coords t) (iblk4 V c 0 t) (iblk4 V c 1 t) a = accAt4 V c t.val t.isLt := by
  obtain ⟨n, hn⟩ := t
  cases n with
  | zero => unfold accAt4 accStep4; simp only [if_pos ((first_iff4 ⟨0, hn⟩).mpr (Nat.zero_mod _))]
  | succ n => rw [ha (Nat.succ_ne_zero n)]; rfl

theorem PhiA4_eq (c : Dev nD) :
    (Pipeline.ΦA spec4 c : sProp 𝕄)
      = iprop(iprop((∃ d, owns (c : Thread nD τ) scr4 fullShare d)
          ∗ Pipeline.scopedRestBut spec4 c [cc4_scratch0]) ∗ (∃ r, prngReg c r)) := by
  unfold Pipeline.ΦA; rw [scopedRest4_split]; simp only [scr4, owns_whole]; try rfl

/-- The region's proof data; between points the accumulator is at what the point before left, at anything before the first. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := iprop(∃ a, ⌜∀ h : t.val ≠ 0, a = accAt4 V c (t.val - 1) (by omega)⌝ ∗ owns (c : Thread nD τ) scr4 fullShare a
    ∗ Pipeline.scopedRestBut spec4 c [cc4_scratch0] ∗ (∃ r, prngReg c r))
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = accAt4 V c t.val t.isLt := rfl

theorem before4 (c : Dev nD) (t : Fin cfg4.N) :
    (∀ d, (dat4 V c).before 0 t d = iblk4 V c 0 t) ∧ ∀ d, (dat4 V c).before 1 t d = iblk4 V c 1 t := by
  constructor <;> exact fun d =>
    ((dat4 V c).before_in_eq_fetched _ rfl (fun _ => rfl) (fun _ _ _ => rfl) (fun _ => rfl) t d).trans rfl

/-- The output block is stored exactly on the last steps. -/
theorem leaves4 (c : Dev nD) (t : Fin cfg4.N) (d) :
    owns (c : Thread nD τ) (st4_2 t) fullShare (if isLast4 (grid4.coords t) then accAt4 V c t.val t.isLt else (dat4 V c).before 2 t d)
      ⊢ (dat4 V c).leavesExact 2 t := by
  have h := sched4 t
  by_cases hl : isLast4 (grid4.coords t)
  · rw [if_pos hl] at h ⊢; unfold Dat.leavesExact; rw [h]; exact .rfl
  · rw [if_neg hl] at h ⊢; rw [Dat.leavesExact_idle _ 2 t h.1 h.2]; iintro H; iexists _; iexact H

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [(before4 V c t).1, (before4 V c t).2]
  dsimp only [dat4]
  iintro ⟨⟨%a, %ha, Ha, Hr, Hg⟩, Hd, ⟨%da, Hx⟩, ⟨%db, Hw⟩, ⟨%dc, Ho⟩⟩
  iapply (run4 c Set.univ _ _ _ _ _ _ _ _ _ (iblk4 V c 0 t) (iblk4 V c 1 t) _ a _)
  iframe Hx Hw Ho Ha
  iintro ⟨Hx, Hw, Ho, Ha⟩
  rw [accStep4_eq V c t a ha]
  isplitl [Ha Hr Hg]
  · iexists accAt4 V c t.val t.isLt; iframe Ha Hr Hg; ipureintro; exact fun _ => rfl
  isplitl [Hd]; · iexact Hd
  isplitl [Hx]; · iexact Hx
  isplitl [Hw]; · iexact Hw
  iapply leaves4 V c t dc; iexact Ho

theorem hin4 (c : Dev nD) : Pipeline.ΦA spec4 c ⊢ (dat4 V c).Φ 0 := by
  rw [PhiA4_eq]; dsimp only [dat4]
  iintro ⟨⟨⟨%a, Ha⟩, Hr⟩, Hg⟩
  iexists a; iframe Ha Hr Hg; ipureintro; exact fun h => absurd rfl h

theorem hout4 (c : Dev nD) : (dat4 V c).Φ (Fin.last cfg4.N) ⊢ Pipeline.ΦA spec4 c := by
  rw [PhiA4_eq]; dsimp only [dat4]
  iintro ⟨%a, -, Ha, Hr, Hg⟩
  iframe Hr Hg; iexists a; iexact Ha

end Cert.Kernel.Fr

end
-- ==== Proof.KB.Bn5.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import Idealize.ShloMosaic.Lib.Pipeline.FrameBody
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]
  (V : (c : Dev nD) → (b : Ref sig .tc) → Buf (Elt F) ((c : Thread nD τ).loc b))

/-- Operand `w`'s block at grid point `t`, of the arrays as they are when the region starts. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rBlk5 : Rect S8192x128 := Rect.unit (s := S8192x128) ![0, 0] S8192x128.size inb_S8192x128_S8192x128_0_0
abbrev rRow5 : Rect S1x128 := Rect.unit (s := S1x128) ![0, 0] S1x128.size inb_S1x128_S1x128_0_0

/-- The body's one store, over the whole output block, of the normalised input blocks. -/
def out5_3 (x : Vec F S8192x128 .f32) (y z : Vec F S1x128 .f32) : Vec F S8192x128 .f32 :=
  View.canon [⟨rBlk5, k5_pay1 (View.ld x rBlk5) (View.ld y rRow5) (View.ld z rRow5)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) :
    (dat5 V c).after 3 t = out5_3 (iblk5 V c 0 t) (iblk5 V c 1 t) (iblk5 V c 2 t) := by dsimp only [dat5]

/-- The body reads its three input blocks and leaves them as they are; its one store covers the output block. -/
theorem body_obligation5 (c : Dev nD) : BodyObligation (dat5 (F := F) V c) (defs₀ (F := F)) Variants.none () Set.univ := fun t => by
  have ha d : (dat5 V c).before 0 t d = iblk5 V c 0 t := (dat5 V c).before_fetched 0 t (fetch5_0 t) d
  have hb d : (dat5 V c).before 1 t d = iblk5 V c 1 t := (dat5 V c).before_fetched 1 t (fetch5_1 t) d
  have hc d : (dat5 V c).before 2 t d = iblk5 V c 2 t := (dat5 V c).before_fetched 2 t (fetch5_2 t) d
  rw [bigSep_W5, bigSep_W5]
  simp only [ha, hb, hc]
  dsimp only [dat5]
  generalize iblk5 V c 0 t = x, iblk5 V c 1 t = y, iblk5 V c 2 t = z
  show _ ⊢ wp _ _ _ (bodyAt5 t) _
  simp only [bodyAt5, cc5__bn_kernel_eq_skeleton]
  unfold cc5__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.Kernel.Fr

end
-- ==== Proof.KB.Mm6.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import proofs.«147723_j3221225472529_1_alg».proof.Proof.Whole
import Idealize.ShloMosaic.Lib.Pipeline.TableIdle

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scr6 : Memref sig .tc .vmem S1024x10 .f32 := Memref.whole cc6_scratch0

/-- The body's two tests on the reduction coordinate. -/
abbrev isFirst6 (i : grid6.Coords) : Prop :=
  (Scalar.cmpi .ne (Scalar.extui (Scalar.cmpi .eq (BitVec.ofNat 32 (i 2).val) 0#32)) 0#32) = 1#1
abbrev isLast6 (i : grid6.Coords) : Prop := k6_cond2 i = 1#1

/-- One accumulation step: the accumulator (zero on a first step) plus the product of the activation block with the signs of the weight block. -/
def accStep6 (i : grid6.Coords) (x : Vec F S1024x1024 .f32) (w : Vec F S10x1024 .f32) (a : Vec F S1024x10 .f32) : Vec F S1024x10 .f32 :=
  k6_pay2 x w (if isFirst6 i then k6_pay1 else a)

set_option maxHeartbeats 4000000 in
/-- Whatever its two tests say, the body leaves the accumulator one step further, and the output block at it exactly on a last step. -/
theorem run6 (c : Dev nD) (E : Set ℕ) (i : grid6.Coords)
    (arg3 : Memref sig .tc .vmem S1024x1024 .f32) (harg3 : arg3.IsWhole) (arg4 : Memref sig .tc .vmem S10x1024 .f32) (harg4 : arg4.IsWhole)
    (arg5 : Memref sig .tc .vmem S1024x10 .f32) (harg5 : arg5.IsWhole) (arg6 : Memref sig .tc .vmem S1024x10 .f32) (harg6 : arg6.IsWhole)
    (x : Vec F S1024x1024 .f32) (w : Vec F S10x1024 .f32) (o a : Vec F S1024x10 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast6 i then accStep6 i x w a else o)
            ∗ owns (c : Thread nD τ) arg6 fullShare (accStep6 i x w a)) -∗ K ⟨⟩))
      ⊢ wp frame (wpE (defs₀ (F := F)) Variants.none c none) E (cc6__matmul_sign_kernel i arg3 harg3 arg4 harg4 arg5 harg5 arg6 harg6) K := by
  rw [cc6__matmul_sign_kernel_eq_skeleton, owns_eq_rep (c : Thread nD τ) arg3, owns_eq_rep (c : Thread nD τ) arg4]
  unfold accStep6 owns cc6__matmul_sign_kernel_skel
  iintro ⟨Hx, Hw, ⟨%fo, %ho, Ho⟩, ⟨%fa, %ha, Ha⟩, Hk⟩
  subst ho; subst ha
  by_cases hf : isFirst6 i <;> by_cases hl : isLast6 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x10) _ zz, View.ld_unit_zero (S := S1024x1024) zz,
          View.ld_unit_zero (S := S10x1024) zz, View.ld_unit_zero (S := S1024x10) zz])))

theorem first_iff6 : ∀ t : Fin cfg6.N, isFirst6 (grid6.coords t) ↔ t.val % 4 = 0 := by decide +kernel
theorem sched6 : ∀ t : Fin cfg6.N, if isLast6 (grid6.coords t) then cfg6.idle 2 (grid6.coords t) = false
    else cfg6.idle 2 (grid6.coords t) = true ∧ (cfg6.win 2).flush t = false := by decide +kernel

/-- The accumulator after point `n`, by recursion on the point: one step from what the point before left, from zero at the first. -/
def accAt6 (c : Dev nD) : (n : ℕ) → n < cfg6.N → Vec F S1024x10 .f32
  | 0, h => accStep6 (grid6.coords ⟨0, h⟩) (iblk6 V c 0 ⟨0, h⟩) (iblk6 V c 1 ⟨0, h⟩) k6_pay1
  | n + 1, h => accStep6 (grid6.coords ⟨n + 1, h⟩) (iblk6 V c 0 ⟨n + 1, h⟩) (iblk6 V c 1 ⟨n + 1, h⟩) (accAt6 c n (Nat.lt_of_succ_lt h))

/-- The first point is a first step, so there the step does not read its start. -/
theorem accStep6_eq (c : Dev nD) (t : Fin cfg6.N) (a : Vec F S1024x10 .f32)
    (ha : ∀ h : t.val ≠ 0, a = accAt6 V c (t.val - 1) (by omega)) :
    accStep6 (grid6.coords t) (iblk6 V c 0 t) (iblk6 V c 1 t) a = accAt6 V c t.val t.isLt := by
  obtain ⟨n, hn⟩ := t
  cases n with
  | zero => unfold accAt6 accStep6; simp only [if_pos ((first_iff6 ⟨0, hn⟩).mpr (Nat.zero_mod _))]
  | succ n => rw [ha (Nat.succ_ne_zero n)]; rfl

theorem PhiA6_eq (c : Dev nD) :
    (Pipeline.ΦA spec6 c : sProp 𝕄)
      = iprop(iprop((∃ d, owns (c : Thread nD τ) scr6 fullShare d)
          ∗ Pipeline.scopedRestBut spec6 c [cc6_scratch0]) ∗ (∃ r, prngReg c r)) := by
  unfold Pipeline.ΦA; rw [scopedRest6_split]; simp only [scr6, owns_whole]; try rfl

/-- The region's proof data; between points the accumulator is at what the point before left, at anything before the first. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c t.val t.isLt
  Φ t := iprop(∃ a, ⌜∀ h : t.val ≠ 0, a = accAt6 V c (t.val - 1) (by omega)⌝ ∗ owns (c : Thread nD τ) scr6 fullShare a
    ∗ Pipeline.scopedRestBut spec6 c [cc6_scratch0] ∗ (∃ r, prngReg c r))
  q _ := fullShare
  owed _ := 0

theorem A_eq6 (c : Dev nD) (w : Fin cfg6.W) : (dat6 V c).A w = V c (Pipeline.arrRef spec6 w) := rfl
theorem after6_2 (c : Dev nD) (t : Fin cfg6.N) : (dat6 V c).after 2 t = accAt6 V c t.val t.isLt := rfl

theorem before6 (c : Dev nD) (t : Fin cfg6.N) :
    (∀ d, (dat6 V c).before 0 t d = iblk6 V c 0 t) ∧ ∀ d, (dat6 V c).before 1 t d = iblk6 V c 1 t := by
  constructor <;> exact fun d =>
    ((dat6 V c).before_in_eq_fetched _ rfl (fun _ => rfl) (fun _ _ _ => rfl) (fun _ => rfl) t d).trans rfl

/-- The output block is stored exactly on the last steps. -/
theorem leaves6 (c : Dev nD) (t : Fin cfg6.N) (d) :
    owns (c : Thread nD τ) (st6_2 t) fullShare (if isLast6 (grid6.coords t) then accAt6 V c t.val t.isLt else (dat6 V c).before 2 t d)
      ⊢ (dat6 V c).leavesExact 2 t := by
  have h := sched6 t
  by_cases hl : isLast6 (grid6.coords t)
  · rw [if_pos hl] at h ⊢; unfold Dat.leavesExact; rw [h]; exact .rfl
  · rw [if_neg hl] at h ⊢; rw [Dat.leavesExact_idle _ 2 t h.1 h.2]; iintro H; iexists _; iexact H

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  simp only [(before6 V c t).1, (before6 V c t).2]
  dsimp only [dat6]
  iintro ⟨⟨%a, %ha, Ha, Hr, Hg⟩, Hd, ⟨%da, Hx⟩, ⟨%db, Hw⟩, ⟨%dc, Ho⟩⟩
  iapply (run6 c Set.univ _ _ _ _ _ _ _ _ _ (iblk6 V c 0 t) (iblk6 V c 1 t) _ a _)
  iframe Hx Hw Ho Ha
  iintro ⟨Hx, Hw, Ho, Ha⟩
  rw [accStep6_eq V c t a ha]
  isplitl [Ha Hr Hg]
  · iexists accAt6 V c t.val t.isLt; iframe Ha Hr Hg; ipureintro; exact fun _ => rfl
  isplitl [Hd]; · iexact Hd
  isplitl [Hx]; · iexact Hx
  isplitl [Hw]; · iexact Hw
  iapply leaves6 V c t dc; iexact Ho

theorem hin6 (c : Dev nD) : Pipeline.ΦA spec6 c ⊢ (dat6 V c).Φ 0 := by
  rw [PhiA6_eq]; dsimp only [dat6]
  iintro ⟨⟨⟨%a, Ha⟩, Hr⟩, Hg⟩
  iexists a; iframe Ha Hr Hg; ipureintro; exact fun h => absurd rfl h

theorem hout6 (c : Dev nD) : (dat6 V c).Φ (Fin.last cfg6.N) ⊢ Pipeline.ΦA spec6 c := by
  rw [PhiA6_eq]; dsimp only [dat6]
  iintro ⟨%a, -, Ha, Hr, Hg⟩
  iframe Hr Hg; iexists a; iexact Ha

end Cert.Kernel.Fr

end
-- ==== Proof.KB.Bn7.lean ====
import proofs.«147723_j3221225472529_1_alg».proof.Proof.Gen.Kernel.Launch
import proofs.«147723_j3221225472529_1_alg».proof.Proof.Gen.Kernel.Skeleton
import proofs.«147723_j3221225472529_1_alg».proof.Proof.Gen.Kernel.Points
import Idealize.ShloMosaic.Lib.Pipeline.FrameBody
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]
  (V : (c : Dev nD) → (b : Ref sig .tc) → Buf (Elt F) ((c : Thread nD τ).loc b))

/-- Operand `w`'s block at grid point `t`, of the arrays as they are when the region starts. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rBlk7 : Rect S8192x10 := Rect.unit (s := S8192x10) ![0, 0] S8192x10.size inb_S8192x10_S8192x10_0_0
abbrev rRow7 : Rect S1x10 := Rect.unit (s := S1x10) ![0, 0] S1x10.size inb_S1x10_S1x10_0_0

/-- The body's one store, over the whole output block, of the normalised input blocks. -/
def out7_3 (x : Vec F S8192x10 .f32) (y z : Vec F S1x10 .f32) : Vec F S8192x10 .f32 :=
  View.canon [⟨rBlk7, k7_pay1 (View.ld x rBlk7) (View.ld y rRow7) (View.ld z rRow7)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (c : Dev nD) (t : Fin cfg7.N) :
    (dat7 V c).after 3 t = out7_3 (iblk7 V c 0 t) (iblk7 V c 1 t) (iblk7 V c 2 t) := by dsimp only [dat7]

/-- The body reads its three input blocks and leaves them as they are; its one store covers the output block. -/
theorem body_obligation7 (c : Dev nD) : BodyObligation (dat7 (F := F) V c) (defs₀ (F := F)) Variants.none () Set.univ := fun t => by
  have ha d : (dat7 V c).before 0 t d = iblk7 V c 0 t := (dat7 V c).before_fetched 0 t (fetch7_0 t) d
  have hb d : (dat7 V c).before 1 t d = iblk7 V c 1 t := (dat7 V c).before_fetched 1 t (fetch7_1 t) d
  have hc d : (dat7 V c).before 2 t d = iblk7 V c 2 t := (dat7 V c).before_fetched 2 t (fetch7_2 t) d
  rw [bigSep_W7, bigSep_W7]
  simp only [ha, hb, hc]
  dsimp only [dat7]
  generalize iblk7 V c 0 t = x, iblk7 V c 1 t = y, iblk7 V c 2 t = z
  show _ ⊢ wp _ _ _ (bodyAt7 t) _
  simp only [bodyAt7, cc7__bn_kernel_eq_skeleton]
  unfold cc7__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x10.size (by rfl))

end Cert.Kernel.Fr

end
-- ==== Proof.KB.RunKB.lean ====
import proofs.«147723_j3221225472529_1_alg».proof.Proof.KB.Mm0
import proofs.«147723_j3221225472529_1_alg».proof.Proof.KB.Bn1
import proofs.«147723_j3221225472529_1_alg».proof.Proof.KB.Mm2
import proofs.«147723_j3221225472529_1_alg».proof.Proof.KB.Bn3
import proofs.«147723_j3221225472529_1_alg».proof.Proof.KB.Mm4
import proofs.«147723_j3221225472529_1_alg».proof.Proof.KB.Bn5
import proofs.«147723_j3221225472529_1_alg».proof.Proof.KB.Mm6
import proofs.«147723_j3221225472529_1_alg».proof.Proof.KB.Bn7
import proofs.«147723_j3221225472529_1_alg».proof.Proof.Gen.Kernel.Regions
import Idealize.ShloMosaic.Lib.Pipeline.RegionsLoop
import Idealize.ShloMosaic.Lib.Pipeline.FrameSuffix

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev VR0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev VR3 : (c : Dev nD) → (b : Ref sig .tc) → Buf (Elt F) ((c : Thread nD τ).loc b) := fun c b => W3 m c b
def W4 (c : Dev nD) : Valuation τ sig (Elt F) :=
  Pipeline.withArrays spec2 c (W3 m c) fun w => (dat2 (VR3 m) c).arrAt w cfg2.N
theorem W4_arr (c : Dev nD) (w : Fin cfg2.W) :
    W4 m c (Proc.devRef .tc (Pipeline.arrRef spec2 w)) = (dat2 (VR3 m) c).arrAt w cfg2.N :=
  Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) :=
  Pipeline.withArrays_of_ne spec2 c _ _ b hb
abbrev W5 : Dev nD → Valuation τ sig (Elt F) := fun c => StableHlo.after hostOps3 (W4 m c)
abbrev VR5 : (c : Dev nD) → (b : Ref sig .tc) → Buf (Elt F) ((c : Thread nD τ).loc b) := fun c b => W5 m c b
def W6 (c : Dev nD) : Valuation τ sig (Elt F) :=
  Pipeline.withArrays spec3 c (W5 m c) fun w => (dat3 (VR5 m) c).arrAt w cfg3.N
theorem W6_arr (c : Dev nD) (w : Fin cfg3.W) :
    W6 m c (Proc.devRef .tc (Pipeline.arrRef spec3 w)) = (dat3 (VR5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev VR6 : (c : Dev nD) → (b : Ref sig .tc) → Buf (Elt F) ((c : Thread nD τ).loc b) := fun c b => W6 m c b
def W7 (c : Dev nD) : Valuation τ sig (Elt F) :=
  Pipeline.withArrays spec4 c (W6 m c) fun w => (dat4 (VR6 m) c).arrAt w cfg4.N
theorem W7_arr (c : Dev nD) (w : Fin cfg4.W) :
    W7 m c (Proc.devRef .tc (Pipeline.arrRef spec4 w)) = (dat4 (VR6 m) c).arrAt w cfg4.N :=
  Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) :=
  Pipeline.withArrays_of_ne spec4 c _ _ b hb
abbrev W8 : Dev nD → Valuation τ sig (Elt F) := fun c => StableHlo.after hostOps5 (W7 m c)
abbrev VR8 : (c : Dev nD) → (b : Ref sig .tc) → Buf (Elt F) ((c : Thread nD τ).loc b) := fun c b => W8 m c b
def W9 (c : Dev nD) : Valuation τ sig (Elt F) :=
  Pipeline.withArrays spec5 c (W8 m c) fun w => (dat5 (VR8 m) c).arrAt w cfg5.N
theorem W9_arr (c : Dev nD) (w : Fin cfg5.W) :
    W9 m c (Proc.devRef .tc (Pipeline.arrRef spec5 w)) = (dat5 (VR8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb
abbrev VR9 : (c : Dev nD) → (b : Ref sig .tc) → Buf (Elt F) ((c : Thread nD τ).loc b) := fun c b => W9 m c b
def W10 (c : Dev nD) : Valuation τ sig (Elt F) :=
  Pipeline.withArrays spec6 c (W9 m c) fun w => (dat6 (VR9 m) c).arrAt w cfg6.N
theorem W10_arr (c : Dev nD) (w : Fin cfg6.W) :
    W10 m c (Proc.devRef .tc (Pipeline.arrRef spec6 w)) = (dat6 (VR9 m) c).arrAt w cfg6.N :=
  Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) :=
  Pipeline.withArrays_of_ne spec6 c _ _ b hb
abbrev W11 : Dev nD → Valuation τ sig (Elt F) := fun c => StableHlo.after hostOps7 (W10 m c)
abbrev VR11 : (c : Dev nD) → (b : Ref sig .tc) → Buf (Elt F) ((c : Thread nD τ).loc b) := fun c b => W11 m c b
def W12 (c : Dev nD) : Valuation τ sig (Elt F) :=
  Pipeline.withArrays spec7 c (W11 m c) fun w => (dat7 (VR11 m) c).arrAt w cfg7.N
theorem W12_arr (c : Dev nD) (w : Fin cfg7.W) :
    W12 m c (Proc.devRef .tc (Pipeline.arrRef spec7 w)) = (dat7 (VR11 m) c).arrAt w cfg7.N :=
  Pipeline.withArrays_arr spec7 launch7.win.arr_inj c _ _ w
theorem W12_of_ne (c : Dev nD) (b : Ref sig .tc) (hb : ∀ w, Pipeline.arrRef spec7 w ≠ b) :
    W12 m c (Proc.devRef .tc b) = W11 m c (Proc.devRef .tc b) :=
  Pipeline.withArrays_of_ne spec7 c _ _ b hb

def pdatsF : (p : Fin 8) → (c : Dev nD) → Dat τ (Elt F) Unit ℕ (UR sig nD τ) ℕ (Pipeline.pin (pcfgs (F := F)) adm p) c
  | ⟨0, _⟩ => dat0 (VR0 m)
  | ⟨1, _⟩ => dat1 (VR2 m)
  | ⟨2, _⟩ => dat2 (VR3 m)
  | ⟨3, _⟩ => dat3 (VR5 m)
  | ⟨4, _⟩ => dat4 (VR6 m)
  | ⟨5, _⟩ => dat5 (VR8 m)
  | ⟨6, _⟩ => dat6 (VR9 m)
  | ⟨7, _⟩ => dat7 (VR11 m)
abbrev VarsF : Variants := Variants.none
abbrev LF : GSem nD τ sig → Finset Unit := fun _ => ∅
abbrev lvF : GSem nD τ sig → Unit → ℕ := fun _ _ => 0
abbrev Rr (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarsF LF lvF :=
  Pipeline.HostSeg.ofOps _ _ _ _ _ (Pipeline.ucRefs τ sig) ops
    (fun op h => Pipeline.sub_ucRefs op ((List.forall_iff_forall_mem.mp hsub) op h))
    (List.forall_iff_forall_mem.mp hfresh) W Rr
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Across a region only its own arrays change. -/
def regOf (p : Fin 8) (lf : Pipeline.LaunchFacts (nD := nD) (τ := τ) cfgs p) (V : Dev nD → Valuation τ sig (Elt F))
    (hbody : ∀ c, BodyObligation (pdatsF m p c) (defs₀ (F := F)) VarsF () Set.univ)
    (hin : ∀ c, Pipeline.ΦA (cfgs p).spec c ⊢ (pdatsF m p c).Φ 0 := by exact fun _ => .rfl)
    (hout : ∀ c, (pdatsF m p c).Φ (Fin.last _) ⊢ Pipeline.ΦA (cfgs p).spec c := by exact fun _ => .rfl)
    (hA : ∀ c w, (pdatsF m p c).A w = V c (Proc.devRef .tc (Pipeline.arrRef (cfgs p).spec w)) := by exact fun _ _ => rfl)
    (hq : ∀ c w, (pdatsF m p c).q w = fullShare := by exact fun _ _ => rfl)
    (howed : ∀ c t, (pdatsF m p c).owed t = 0 := by exact fun _ _ => rfl)
    (hrec : ∀ c, (pdatsF m p c).recorded 0 = Set.univ := by exact fun _ => rfl) :
    Pipeline.RegionSeg (pcfgs (F := F)) adm (pdatsF m) () defs₀ VarsF LF lvF p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ LF lvF p howed
  pre c := iprop(StableHlo.held (c : Thread nD τ) (Pipeline.ucRefs τ sig) (V c) ∗ Rr c)
  post c := iprop(StableHlo.held (c : Thread nD τ) (Pipeline.ucRefs τ sig)
    (Pipeline.withArrays (cfgs p).spec c (V c) fun w => (pdatsF m p c).arrAt w (cfgs p).N) ∗ Rr c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdatsF m) lf.win lf.arr_whole c
      ((pdatsF m p c).share_full (hq c)) (fun b => V c b) (hA c)
    rw [Pipeline.unscopedBufs_held] at hsplit
    iintro ⟨⟨Hub, Hp, HO⟩, -⟩
    icases hsplit $$ Hub with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c ▸ trivial)
      rw [howed c]; iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdatsF m) ((pdatsF m p c).share_full (hq c)) (fun b => V c b)
      (fun b => Pipeline.withArrays (cfgs p).spec c (V c) (fun w => (pdatsF m p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c]; iexact HO

abbrev segsF : List (Pipeline.Seg (pcfgs (F := F)) adm (pdatsF m) () defs₀ VarsF LF lvF) :=
  [ .region (regOf m 0 launch0 (W0 m) (body_obligation0 _) (hin0 _) (hout0 _)),
    .host (hsegF hostOps1 hostOps1_sub hostOps1_fresh (W1 m)),
    .region (regOf m 1 launch1 (W2 m) (body_obligation1 _)),
    .region (regOf m 2 launch2 (W3 m) (body_obligation2 _) (hin2 _) (hout2 _)),
    .host (hsegF hostOps3 hostOps3_sub hostOps3_fresh (W4 m)),
    .region (regOf m 3 launch3 (W5 m) (body_obligation3 _)),
    .region (regOf m 4 launch4 (W6 m) (body_obligation4 _) (hin4 _) (hout4 _)),
    .host (hsegF hostOps5 hostOps5_sub hostOps5_fresh (W7 m)),
    .region (regOf m 5 launch5 (W8 m) (body_obligation5 _)),
    .region (regOf m 6 launch6 (W9 m) (body_obligation6 _) (hin6 _) (hout6 _)),
    .host (hsegF hostOps7 hostOps7_sub hostOps7_fresh (W10 m)),
    .region (regOf m 7 launch7 (W11 m) (body_obligation7 _)) ]

set_option backward.isDefEq.respectTransparency.types false in
/-- Every run ends, without fault, at the last boundary's contents. -/
theorem runF (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W12 m c b) :=
  Pipeline.θ_run_regions_kit (pcfgs (F := F)) adm (pdatsF m) () cellOf_inj emb₁ defs₀ VarsF LF lvF m ρ main (segsF m)
    (fun c Q => by rw [show main (F := F) c = Pipeline.Seg.run (segsF m) from main_segs _ _ _ _ _ _ _ _ _ _ _ _ _ _ _ _ _ _ rfl rfl rfl rfl c])
    (by simp only [segsF, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := fun c => iprop(StableHlo.held (c : Thread nD τ) (Pipeline.ucRefs τ sig) (W0 m c) ∗ Rr c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach LF lvF fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

end Cert.Kernel.Fr

end
-- ==== Proof.KB.FoldArgs.lean ====
import proofs.«147723_j3221225472529_1_alg».proof.Proof.KB.RunKB

set_option maxRecDepth 16384

noncomputable section

namespace Cert.Kernel.Fr

open Idealize.ShloMosaic Idealize.ShloMosaic.TcCoe
open Cert.Kernel Cert.Kernel.Gen

variable {F : FTy → Type} [FloatOps F] (m : (ℓ : Loc nD τ sig) → Buf (Elt F) ℓ) (c : Dev nD)

/-- Across a region only its output arrays change. -/
theorem keep_of {W : ℕ} {X' X : Valuation τ sig (Elt F)} {arr : Fin W → Ref sig .tc} {out : Fin W → Bool}
    (hin : ∀ w, out w = false → X' (Proc.devRef .tc (arr w)) = X (Proc.devRef .tc (arr w)))
    (hne : ∀ b, (∀ w, arr w ≠ b) → X' (Proc.devRef .tc b) = X (Proc.devRef .tc b))
    {b : Ref sig .tc} (hb : ∀ w, arr w = b → out w = false) : X' (Proc.devRef .tc b) = X (Proc.devRef .tc b) := by
  by_cases h : ∃ w, arr w = b
  · obtain ⟨w, rfl⟩ := h; exact hin w (hb w rfl)
  · exact hne b fun w e => h ⟨w, e⟩

/-- The argument arrays: no item of the program writes one. -/
abbrev args : List (Ref sig .tc) := [main_arg0, main_arg1, main_arg2, main_arg3, main_arg4, main_arg5, main_arg6,
  main_arg7, main_arg8, main_arg9, main_arg10, main_arg11, main_arg12]

theorem W1_args : ∀ b ∈ args, W1 m c (Proc.devRef .tc b) = m ((c : Thread nD τ).loc b) := fun b hb =>
  (keep_of (X := W0 m c) (fun w hw => (W1_arr m c w).trans (((dat0 (VR0 m) c).arrAt_in w hw _).trans (A_eq0 (VR0 m) c w)))
    (W1_of_ne m c) ((by decide : ∀ b ∈ args, ∀ w, Pipeline.arrRef spec0 w = b → (win0 w).isOut = false) b hb)).trans rfl
theorem W3_args : ∀ b ∈ args, W3 m c (Proc.devRef .tc b) = m ((c : Thread nD τ).loc b) := fun b hb =>
  (W3_of_ne m c b ((by decide : ∀ b ∈ args, ∀ w, Pipeline.arrRef spec1 w ≠ b) b hb)).trans <|
    (StableHlo.after_of_writes_sub hostOps1 _ hostOps1_writes ((by decide : ∀ b ∈ args, b ∉ hostOps1_W) b hb)).trans (W1_args m c b hb)
theorem W4_args : ∀ b ∈ args, W4 m c (Proc.devRef .tc b) = m ((c : Thread nD τ).loc b) := fun b hb =>
  (keep_of (X := W3 m c) (fun w hw => (W4_arr m c w).trans (((dat2 (VR3 m) c).arrAt_in w hw _).trans (A_eq2 (VR3 m) c w)))
    (W4_of_ne m c) ((by decide : ∀ b ∈ args, ∀ w, Pipeline.arrRef spec2 w = b → (win2 w).isOut = false) b hb)).trans (W3_args m c b hb)
theorem W6_args : ∀ b ∈ args, W6 m c (Proc.devRef .tc b) = m ((c : Thread nD τ).loc b) := fun b hb =>
  (W6_of_ne m c b ((by decide : ∀ b ∈ args, ∀ w, Pipeline.arrRef spec3 w ≠ b) b hb)).trans <|
    (StableHlo.after_of_writes_sub hostOps3 _ hostOps3_writes ((by decide : ∀ b ∈ args, b ∉ hostOps3_W) b hb)).trans (W4_args m c b hb)
theorem W7_args : ∀ b ∈ args, W7 m c (Proc.devRef .tc b) = m ((c : Thread nD τ).loc b) := fun b hb =>
  (keep_of (X := W6 m c) (fun w hw => (W7_arr m c w).trans (((dat4 (VR6 m) c).arrAt_in w hw _).trans (A_eq4 (VR6 m) c w)))
    (W7_of_ne m c) ((by decide : ∀ b ∈ args, ∀ w, Pipeline.arrRef spec4 w = b → (win4 w).isOut = false) b hb)).trans (W6_args m c b hb)
theorem W9_args : ∀ b ∈ args, W9 m c (Proc.devRef .tc b) = m ((c : Thread nD τ).loc b) := fun b hb =>
  (W9_of_ne m c b ((by decide : ∀ b ∈ args, ∀ w, Pipeline.arrRef spec5 w ≠ b) b hb)).trans <|
    (StableHlo.after_of_writes_sub hostOps5 _ hostOps5_writes ((by decide : ∀ b ∈ args, b ∉ hostOps5_W) b hb)).trans (W7_args m c b hb)
theorem W10_args : ∀ b ∈ args, W10 m c (Proc.devRef .tc b) = m ((c : Thread nD τ).loc b) := fun b hb =>
  (keep_of (X := W9 m c) (fun w hw => (W10_arr m c w).trans (((dat6 (VR9 m) c).arrAt_in w hw _).trans (A_eq6 (VR9 m) c w)))
    (W10_of_ne m c) ((by decide : ∀ b ∈ args, ∀ w, Pipeline.arrRef spec6 w = b → (win6 w).isOut = false) b hb)).trans (W9_args m c b hb)
theorem W12_args : ∀ b ∈ args, W12 m c (Proc.devRef .tc b) = m ((c : Thread nD τ).loc b) := fun b hb =>
  (W12_of_ne m c b ((by decide : ∀ b ∈ args, ∀ w, Pipeline.arrRef spec7 w ≠ b) b hb)).trans <|
    (StableHlo.after_of_writes_sub hostOps7 _ hostOps7_writes ((by decide : ∀ b ∈ args, b ∉ hostOps7_W) b hb)).trans (W10_args m c b hb)

/-- So at the last boundary every argument is as launched. -/
theorem args_kept {mem : (ℓ : Loc nD τ sig) → Buf (Elt F) ℓ}
    (h : ∀ b ∈ Pipeline.ucRefs τ sig, mem ((c : Thread nD τ).1, b) = W12 m c b) :
    args.Forall fun b => mem ((c : Thread nD τ).loc b) = m ((c : Thread nD τ).loc b) :=
  List.forall_iff_forall_mem.mpr fun b hb =>
    (h _ (mem_ucF b ((by decide : ∀ b ∈ args, ¬ (Proc.devRef .tc b : DevRef τ sig).isScoped) b hb))).trans (W12_args m c b hb)

end Cert.Kernel.Fr

end
-- ==== Proof.KI.Mm0.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import proofs.«147723_j3221225472529_1_alg».proof.Proof.Whole
import Idealize.ShloMosaic.Lib.Pipeline.TableIdle

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scr0 : Memref sig .tc .vmem S1024x512 .f32 := Memref.whole cc0_scratch0

/-- The body's two tests on the reduction coordinate. -/
abbrev isFirst0 (i : grid0.Coords) : Prop :=
  (Scalar.cmpi .ne (Scalar.extui (Scalar.cmpi .eq (BitVec.ofNat 32 (i 2).val) 0#32)) 0#32) = 1#1
abbrev isLast0 (i : grid0.Coords) : Prop := k0_cond2 i = 1#1

/-- One accumulation step: the accumulator (zero on a first step) plus the product of the activation block with the signs of the weight block. -/
def accStep0 (i : grid0.Coords) (x : Vec F S1024x784 .f32) (w : Vec F S512x784 .f32) (a : Vec F S1024x512 .f32) : Vec F S1024x512 .f32 :=
  k0_pay2 x w (if isFirst0 i then k0_pay1 else a)

set_option maxHeartbeats 4000000 in
/-- Whatever its two tests say, the body leaves the accumulator one step further, and the output block at it exactly on a last step. -/
theorem run0 (c : Dev nD) (E : Set ℕ) (i : grid0.Coords)
    (arg3 : Memref sig .tc .vmem S1024x784 .f32) (harg3 : arg3.IsWhole) (arg4 : Memref sig .tc .vmem S512x784 .f32) (harg4 : arg4.IsWhole)
    (arg5 : Memref sig .tc .vmem S1024x512 .f32) (harg5 : arg5.IsWhole) (arg6 : Memref sig .tc .vmem S1024x512 .f32) (harg6 : arg6.IsWhole)
    (x : Vec F S1024x784 .f32) (w : Vec F S512x784 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast0 i then accStep0 i x w a else o)
            ∗ owns (c : Thread nD τ) arg6 fullShare (accStep0 i x w a)) -∗ K ⟨⟩))
      ⊢ wp frame (wpE (defs₀ (F := F)) Variants.none c none) E (cc0__matmul_sign_kernel i arg3 harg3 arg4 harg4 arg5 harg5 arg6 harg6) K := by
  rw [cc0__matmul_sign_kernel_eq_skeleton, owns_eq_rep (c : Thread nD τ) arg3, owns_eq_rep (c : Thread nD τ) arg4]
  unfold accStep0 owns cc0__matmul_sign_kernel_skel
  iintro ⟨Hx, Hw, ⟨%fo, %ho, Ho⟩, ⟨%fa, %ha, Ha⟩, Hk⟩
  subst ho; subst ha
  by_cases hf : isFirst0 i <;> by_cases hl : isLast0 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x784) zz,
          View.ld_unit_zero (S := S512x784) zz, View.ld_unit_zero (S := S1024x512) zz])))

theorem first_iff0 : ∀ t : Fin cfg0.N, isFirst0 (grid0.coords t) ↔ t.val % 1 = 0 := by decide +kernel
theorem sched0 : ∀ t : Fin cfg0.N, if isLast0 (grid0.coords t) then cfg0.idle 2 (grid0.coords t) = false
    else cfg0.idle 2 (grid0.coords t) = true ∧ (cfg0.win 2).flush t = false := by decide +kernel

/-- The accumulator after point `n`, by recursion on the point: one step from what the point before left, from zero at the first. -/
def accAt0 (c : Dev nD) : (n : ℕ) → n < cfg0.N → Vec F S1024x512 .f32
  | 0, h => accStep0 (grid0.coords ⟨0, h⟩) (iblk0 V c 0 ⟨0, h⟩) (iblk0 V c 1 ⟨0, h⟩) k0_pay1
  | n + 1, h => accStep0 (grid0.coords ⟨n + 1, h⟩) (iblk0 V c 0 ⟨n + 1, h⟩) (iblk0 V c 1 ⟨n + 1, h⟩) (accAt0 c n (Nat.lt_of_succ_lt h))

/-- The first point is a first step, so there the step does not read its start. -/
theorem accStep0_eq (c : Dev nD) (t : Fin cfg0.N) (a : Vec F S1024x512 .f32)
    (ha : ∀ h : t.val ≠ 0, a = accAt0 V c (t.val - 1) (by omega)) :
    accStep0 (grid0.coords t) (iblk0 V c 0 t) (iblk0 V c 1 t) a = accAt0 V c t.val t.isLt := by
  obtain ⟨n, hn⟩ := t
  cases n with
  | zero => unfold accAt0 accStep0; simp only [if_pos ((first_iff0 ⟨0, hn⟩).mpr (Nat.zero_mod _))]
  | succ n => rw [ha (Nat.succ_ne_zero n)]; rfl

theorem PhiA0_eq (c : Dev nD) :
    (Pipeline.ΦA spec0 c : sProp 𝕄)
      = iprop(iprop((∃ d, owns (c : Thread nD τ) scr0 fullShare d)
          ∗ Pipeline.scopedRestBut spec0 c [cc0_scratch0]) ∗ (∃ r, prngReg c r)) := by
  unfold Pipeline.ΦA; rw [scopedRest0_split]; simp only [scr0, owns_whole]; try rfl

/-- The region's proof data; between points the accumulator is at what the point before left, at anything before the first. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := iprop(∃ a, ⌜∀ h : t.val ≠ 0, a = accAt0 V c (t.val - 1) (by omega)⌝ ∗ owns (c : Thread nD τ) scr0 fullShare a
    ∗ Pipeline.scopedRestBut spec0 c [cc0_scratch0] ∗ (∃ r, prngReg c r))
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = accAt0 V c t.val t.isLt := rfl

theorem before0 (c : Dev nD) (t : Fin cfg0.N) :
    (∀ d, (dat0 V c).before 0 t d = iblk0 V c 0 t) ∧ ∀ d, (dat0 V c).before 1 t d = iblk0 V c 1 t := by
  constructor <;> exact fun d =>
    ((dat0 V c).before_in_eq_fetched _ rfl (fun _ => rfl) (fun _ _ _ => rfl) (fun _ => rfl) t d).trans rfl

/-- The output block is stored exactly on the last steps. -/
theorem leaves0 (c : Dev nD) (t : Fin cfg0.N) (d) :
    owns (c : Thread nD τ) (st0_2 t) fullShare (if isLast0 (grid0.coords t) then accAt0 V c t.val t.isLt else (dat0 V c).before 2 t d)
      ⊢ (dat0 V c).leavesExact 2 t := by
  have h := sched0 t
  by_cases hl : isLast0 (grid0.coords t)
  · rw [if_pos hl] at h ⊢; unfold Dat.leavesExact; rw [h]; exact .rfl
  · rw [if_neg hl] at h ⊢; rw [Dat.leavesExact_idle _ 2 t h.1 h.2]; iintro H; iexists _; iexact H

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [(before0 V c t).1, (before0 V c t).2]
  dsimp only [dat0]
  iintro ⟨⟨%a, %ha, Ha, Hr, Hg⟩, Hd, ⟨%da, Hx⟩, ⟨%db, Hw⟩, ⟨%dc, Ho⟩⟩
  iapply (run0 c Set.univ _ _ _ _ _ _ _ _ _ (iblk0 V c 0 t) (iblk0 V c 1 t) _ a _)
  iframe Hx Hw Ho Ha
  iintro ⟨Hx, Hw, Ho, Ha⟩
  rw [accStep0_eq V c t a ha]
  isplitl [Ha Hr Hg]
  · iexists accAt0 V c t.val t.isLt; iframe Ha Hr Hg; ipureintro; exact fun _ => rfl
  isplitl [Hd]; · iexact Hd
  isplitl [Hx]; · iexact Hx
  isplitl [Hw]; · iexact Hw
  iapply leaves0 V c t dc; iexact Ho

theorem hin0 (c : Dev nD) : Pipeline.ΦA spec0 c ⊢ (dat0 V c).Φ 0 := by
  rw [PhiA0_eq]; dsimp only [dat0]
  iintro ⟨⟨⟨%a, Ha⟩, Hr⟩, Hg⟩
  iexists a; iframe Ha Hr Hg; ipureintro; exact fun h => absurd rfl h

theorem hout0 (c : Dev nD) : (dat0 V c).Φ (Fin.last cfg0.N) ⊢ Pipeline.ΦA spec0 c := by
  rw [PhiA0_eq]; dsimp only [dat0]
  iintro ⟨%a, -, Ha, Hr, Hg⟩
  iframe Hr Hg; iexists a; iexact Ha

end Cert.KernelIdeal.Fr

end
-- ==== Proof.KI.Bn1.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import Idealize.ShloMosaic.Lib.Pipeline.FrameBody
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]
  (V : (c : Dev nD) → (b : Ref sig .tc) → Buf (Elt F) ((c : Thread nD τ).loc b))

/-- Operand `w`'s block at grid point `t`, of the arrays as they are when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBlk1 : Rect S8192x128 := Rect.unit (s := S8192x128) ![0, 0] S8192x128.size inb_S8192x128_S8192x128_0_0
abbrev rRow1 : Rect S1x128 := Rect.unit (s := S1x128) ![0, 0] S1x128.size inb_S1x128_S1x128_0_0

/-- The body's one store, over the whole output block, of the normalised input blocks. -/
def out1_3 (x : Vec F S8192x128 .f32) (y z : Vec F S1x128 .f32) : Vec F S8192x128 .f32 :=
  View.canon [⟨rBlk1, k1_pay1 (View.ld x rBlk1) (View.ld y rRow1) (View.ld z rRow1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

/-- The body reads its three input blocks and leaves them as they are; its one store covers the output block. -/
theorem body_obligation1 (c : Dev nD) : BodyObligation (dat1 (F := F) V c) (defs₀ (F := F)) Variants.none () Set.univ := fun t => by
  have ha d : (dat1 V c).before 0 t d = iblk1 V c 0 t := (dat1 V c).before_fetched 0 t (fetch1_0 t) d
  have hb d : (dat1 V c).before 1 t d = iblk1 V c 1 t := (dat1 V c).before_fetched 1 t (fetch1_1 t) d
  have hc d : (dat1 V c).before 2 t d = iblk1 V c 2 t := (dat1 V c).before_fetched 2 t (fetch1_2 t) d
  rw [bigSep_W1, bigSep_W1]
  simp only [ha, hb, hc]
  dsimp only [dat1]
  generalize iblk1 V c 0 t = x, iblk1 V c 1 t = y, iblk1 V c 2 t = z
  show _ ⊢ wp _ _ _ (bodyAt1 t) _
  simp only [bodyAt1, cc1__bn_kernel_eq_skeleton]
  unfold cc1__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.KernelIdeal.Fr

end
-- ==== Proof.KI.Mm2.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import proofs.«147723_j3221225472529_1_alg».proof.Proof.Whole
import Idealize.ShloMosaic.Lib.Pipeline.TableIdle

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S1024x512 .f32 := Memref.whole cc2_scratch0

/-- The body's two tests on the reduction coordinate. -/
abbrev isFirst2 (i : grid2.Coords) : Prop :=
  (Scalar.cmpi .ne (Scalar.extui (Scalar.cmpi .eq (BitVec.ofNat 32 (i 2).val) 0#32)) 0#32) = 1#1
abbrev isLast2 (i : grid2.Coords) : Prop := k2_cond2 i = 1#1

/-- One accumulation step: the accumulator (zero on a first step) plus the product of the activation block with the signs of the weight block. -/
def accStep2 (i : grid2.Coords) (x : Vec F S1024x1024 .f32) (w : Vec F S512x1024 .f32) (a : Vec F S1024x512 .f32) : Vec F S1024x512 .f32 :=
  k2_pay2 x w (if isFirst2 i then k2_pay1 else a)

set_option maxHeartbeats 4000000 in
/-- Whatever its two tests say, the body leaves the accumulator one step further, and the output block at it exactly on a last step. -/
theorem run2 (c : Dev nD) (E : Set ℕ) (i : grid2.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (x : Vec F S1024x1024 .f32) (w : Vec F S512x1024 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast2 i then accStep2 i x w a else o)
            ∗ owns (c : Thread nD τ) arg6 fullShare (accStep2 i x w a)) -∗ K ⟨⟩))
      ⊢ wp frame (wpE (defs₀ (F := F)) Variants.none c none) E (cc2__matmul_sign_kernel i arg3 harg3 arg4 harg4 arg5 harg5 arg6 harg6) K := by
  rw [cc2__matmul_sign_kernel_eq_skeleton, owns_eq_rep (c : Thread nD τ) arg3, owns_eq_rep (c : Thread nD τ) arg4]
  unfold accStep2 owns cc2__matmul_sign_kernel_skel
  iintro ⟨Hx, Hw, ⟨%fo, %ho, Ho⟩, ⟨%fa, %ha, Ha⟩, Hk⟩
  subst ho; subst ha
  by_cases hf : isFirst2 i <;> by_cases hl : isLast2 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x1024) zz,
          View.ld_unit_zero (S := S512x1024) zz, View.ld_unit_zero (S := S1024x512) zz])))

theorem first_iff2 : ∀ t : Fin cfg2.N, isFirst2 (grid2.coords t) ↔ t.val % 4 = 0 := by decide +kernel
theorem sched2 : ∀ t : Fin cfg2.N, if isLast2 (grid2.coords t) then cfg2.idle 2 (grid2.coords t) = false
    else cfg2.idle 2 (grid2.coords t) = true ∧ (cfg2.win 2).flush t = false := by decide +kernel

/-- The accumulator after point `n`, by recursion on the point: one step from what the point before left, from zero at the first. -/
def accAt2 (c : Dev nD) : (n : ℕ) → n < cfg2.N → Vec F S1024x512 .f32
  | 0, h => accStep2 (grid2.coords ⟨0, h⟩) (iblk2 V c 0 ⟨0, h⟩) (iblk2 V c 1 ⟨0, h⟩) k2_pay1
  | n + 1, h => accStep2 (grid2.coords ⟨n + 1, h⟩) (iblk2 V c 0 ⟨n + 1, h⟩) (iblk2 V c 1 ⟨n + 1, h⟩) (accAt2 c n (Nat.lt_of_succ_lt h))

/-- The first point is a first step, so there the step does not read its start. -/
theorem accStep2_eq (c : Dev nD) (t : Fin cfg2.N) (a : Vec F S1024x512 .f32)
    (ha : ∀ h : t.val ≠ 0, a = accAt2 V c (t.val - 1) (by omega)) :
    accStep2 (grid2.coords t) (iblk2 V c 0 t) (iblk2 V c 1 t) a = accAt2 V c t.val t.isLt := by
  obtain ⟨n, hn⟩ := t
  cases n with
  | zero => unfold accAt2 accStep2; simp only [if_pos ((first_iff2 ⟨0, hn⟩).mpr (Nat.zero_mod _))]
  | succ n => rw [ha (Nat.succ_ne_zero n)]; rfl

theorem PhiA2_eq (c : Dev nD) :
    (Pipeline.ΦA spec2 c : sProp 𝕄)
      = iprop(iprop((∃ d, owns (c : Thread nD τ) scr2 fullShare d)
          ∗ Pipeline.scopedRestBut spec2 c [cc2_scratch0]) ∗ (∃ r, prngReg c r)) := by
  unfold Pipeline.ΦA; rw [scopedRest2_split]; simp only [scr2, owns_whole]; try rfl

/-- The region's proof data; between points the accumulator is at what the point before left, at anything before the first. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := iprop(∃ a, ⌜∀ h : t.val ≠ 0, a = accAt2 V c (t.val - 1) (by omega)⌝ ∗ owns (c : Thread nD τ) scr2 fullShare a
    ∗ Pipeline.scopedRestBut spec2 c [cc2_scratch0] ∗ (∃ r, prngReg c r))
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = accAt2 V c t.val t.isLt := rfl

theorem before2 (c : Dev nD) (t : Fin cfg2.N) :
    (∀ d, (dat2 V c).before 0 t d = iblk2 V c 0 t) ∧ ∀ d, (dat2 V c).before 1 t d = iblk2 V c 1 t := by
  constructor <;> exact fun d =>
    ((dat2 V c).before_in_eq_fetched _ rfl (fun _ => rfl) (fun _ _ _ => rfl) (fun _ => rfl) t d).trans rfl

/-- The output block is stored exactly on the last steps. -/
theorem leaves2 (c : Dev nD) (t : Fin cfg2.N) (d) :
    owns (c : Thread nD τ) (st2_2 t) fullShare (if isLast2 (grid2.coords t) then accAt2 V c t.val t.isLt else (dat2 V c).before 2 t d)
      ⊢ (dat2 V c).leavesExact 2 t := by
  have h := sched2 t
  by_cases hl : isLast2 (grid2.coords t)
  · rw [if_pos hl] at h ⊢; unfold Dat.leavesExact; rw [h]; exact .rfl
  · rw [if_neg hl] at h ⊢; rw [Dat.leavesExact_idle _ 2 t h.1 h.2]; iintro H; iexists _; iexact H

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [(before2 V c t).1, (before2 V c t).2]
  dsimp only [dat2]
  iintro ⟨⟨%a, %ha, Ha, Hr, Hg⟩, Hd, ⟨%da, Hx⟩, ⟨%db, Hw⟩, ⟨%dc, Ho⟩⟩
  iapply (run2 c Set.univ _ _ _ _ _ _ _ _ _ (iblk2 V c 0 t) (iblk2 V c 1 t) _ a _)
  iframe Hx Hw Ho Ha
  iintro ⟨Hx, Hw, Ho, Ha⟩
  rw [accStep2_eq V c t a ha]
  isplitl [Ha Hr Hg]
  · iexists accAt2 V c t.val t.isLt; iframe Ha Hr Hg; ipureintro; exact fun _ => rfl
  isplitl [Hd]; · iexact Hd
  isplitl [Hx]; · iexact Hx
  isplitl [Hw]; · iexact Hw
  iapply leaves2 V c t dc; iexact Ho

theorem hin2 (c : Dev nD) : Pipeline.ΦA spec2 c ⊢ (dat2 V c).Φ 0 := by
  rw [PhiA2_eq]; dsimp only [dat2]
  iintro ⟨⟨⟨%a, Ha⟩, Hr⟩, Hg⟩
  iexists a; iframe Ha Hr Hg; ipureintro; exact fun h => absurd rfl h

theorem hout2 (c : Dev nD) : (dat2 V c).Φ (Fin.last cfg2.N) ⊢ Pipeline.ΦA spec2 c := by
  rw [PhiA2_eq]; dsimp only [dat2]
  iintro ⟨%a, -, Ha, Hr, Hg⟩
  iframe Hr Hg; iexists a; iexact Ha

end Cert.KernelIdeal.Fr

end
-- ==== Proof.KI.Bn3.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import Idealize.ShloMosaic.Lib.Pipeline.FrameBody
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]
  (V : (c : Dev nD) → (b : Ref sig .tc) → Buf (Elt F) ((c : Thread nD τ).loc b))

/-- Operand `w`'s block at grid point `t`, of the arrays as they are when the region starts. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBlk3 : Rect S8192x128 := Rect.unit (s := S8192x128) ![0, 0] S8192x128.size inb_S8192x128_S8192x128_0_0
abbrev rRow3 : Rect S1x128 := Rect.unit (s := S1x128) ![0, 0] S1x128.size inb_S1x128_S1x128_0_0

/-- The body's one store, over the whole output block, of the normalised input blocks. -/
def out3_3 (x : Vec F S8192x128 .f32) (y z : Vec F S1x128 .f32) : Vec F S8192x128 .f32 :=
  View.canon [⟨rBlk3, k3_pay1 (View.ld x rBlk3) (View.ld y rRow3) (View.ld z rRow3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

/-- The body reads its three input blocks and leaves them as they are; its one store covers the output block. -/
theorem body_obligation3 (c : Dev nD) : BodyObligation (dat3 (F := F) V c) (defs₀ (F := F)) Variants.none () Set.univ := fun t => by
  have ha d : (dat3 V c).before 0 t d = iblk3 V c 0 t := (dat3 V c).before_fetched 0 t (fetch3_0 t) d
  have hb d : (dat3 V c).before 1 t d = iblk3 V c 1 t := (dat3 V c).before_fetched 1 t (fetch3_1 t) d
  have hc d : (dat3 V c).before 2 t d = iblk3 V c 2 t := (dat3 V c).before_fetched 2 t (fetch3_2 t) d
  rw [bigSep_W3, bigSep_W3]
  simp only [ha, hb, hc]
  dsimp only [dat3]
  generalize iblk3 V c 0 t = x, iblk3 V c 1 t = y, iblk3 V c 2 t = z
  show _ ⊢ wp _ _ _ (bodyAt3 t) _
  simp only [bodyAt3, cc3__bn_kernel_eq_skeleton]
  unfold cc3__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.KernelIdeal.Fr

end
-- ==== Proof.KI.Mm4.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import proofs.«147723_j3221225472529_1_alg».proof.Proof.Whole
import Idealize.ShloMosaic.Lib.Pipeline.TableIdle

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4 : Memref sig .tc .vmem S1024x512 .f32 := Memref.whole cc4_scratch0

/-- The body's two tests on the reduction coordinate. -/
abbrev isFirst4 (i : grid4.Coords) : Prop :=
  (Scalar.cmpi .ne (Scalar.extui (Scalar.cmpi .eq (BitVec.ofNat 32 (i 2).val) 0#32)) 0#32) = 1#1
abbrev isLast4 (i : grid4.Coords) : Prop := k4_cond2 i = 1#1

/-- One accumulation step: the accumulator (zero on a first step) plus the product of the activation block with the signs of the weight block. -/
def accStep4 (i : grid4.Coords) (x : Vec F S1024x1024 .f32) (w : Vec F S512x1024 .f32) (a : Vec F S1024x512 .f32) : Vec F S1024x512 .f32 :=
  k4_pay2 x w (if isFirst4 i then k4_pay1 else a)

set_option maxHeartbeats 4000000 in
/-- Whatever its two tests say, the body leaves the accumulator one step further, and the output block at it exactly on a last step. -/
theorem run4 (c : Dev nD) (E : Set ℕ) (i : grid4.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (x : Vec F S1024x1024 .f32) (w : Vec F S512x1024 .f32) (o a : Vec F S1024x512 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast4 i then accStep4 i x w a else o)
            ∗ owns (c : Thread nD τ) arg6 fullShare (accStep4 i x w a)) -∗ K ⟨⟩))
      ⊢ wp frame (wpE (defs₀ (F := F)) Variants.none c none) E (cc4__matmul_sign_kernel i arg3 harg3 arg4 harg4 arg5 harg5 arg6 harg6) K := by
  rw [cc4__matmul_sign_kernel_eq_skeleton, owns_eq_rep (c : Thread nD τ) arg3, owns_eq_rep (c : Thread nD τ) arg4]
  unfold accStep4 owns cc4__matmul_sign_kernel_skel
  iintro ⟨Hx, Hw, ⟨%fo, %ho, Ho⟩, ⟨%fa, %ha, Ha⟩, Hk⟩
  subst ho; subst ha
  by_cases hf : isFirst4 i <;> by_cases hl : isLast4 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x512) _ zz, View.ld_unit_zero (S := S1024x1024) zz,
          View.ld_unit_zero (S := S512x1024) zz, View.ld_unit_zero (S := S1024x512) zz])))

theorem first_iff4 : ∀ t : Fin cfg4.N, isFirst4 (grid4.coords t) ↔ t.val % 4 = 0 := by decide +kernel
theorem sched4 : ∀ t : Fin cfg4.N, if isLast4 (grid4.coords t) then cfg4.idle 2 (grid4.coords t) = false
    else cfg4.idle 2 (grid4.coords t) = true ∧ (cfg4.win 2).flush t = false := by decide +kernel

/-- The accumulator after point `n`, by recursion on the point: one step from what the point before left, from zero at the first. -/
def accAt4 (c : Dev nD) : (n : ℕ) → n < cfg4.N → Vec F S1024x512 .f32
  | 0, h => accStep4 (grid4.coords ⟨0, h⟩) (iblk4 V c 0 ⟨0, h⟩) (iblk4 V c 1 ⟨0, h⟩) k4_pay1
  | n + 1, h => accStep4 (grid4.coords ⟨n + 1, h⟩) (iblk4 V c 0 ⟨n + 1, h⟩) (iblk4 V c 1 ⟨n + 1, h⟩) (accAt4 c n (Nat.lt_of_succ_lt h))

/-- The first point is a first step, so there the step does not read its start. -/
theorem accStep4_eq (c : Dev nD) (t : Fin cfg4.N) (a : Vec F S1024x512 .f32)
    (ha : ∀ h : t.val ≠ 0, a = accAt4 V c (t.val - 1) (by omega)) :
    accStep4 (grid4.coords t) (iblk4 V c 0 t) (iblk4 V c 1 t) a = accAt4 V c t.val t.isLt := by
  obtain ⟨n, hn⟩ := t
  cases n with
  | zero => unfold accAt4 accStep4; simp only [if_pos ((first_iff4 ⟨0, hn⟩).mpr (Nat.zero_mod _))]
  | succ n => rw [ha (Nat.succ_ne_zero n)]; rfl

theorem PhiA4_eq (c : Dev nD) :
    (Pipeline.ΦA spec4 c : sProp 𝕄)
      = iprop(iprop((∃ d, owns (c : Thread nD τ) scr4 fullShare d)
          ∗ Pipeline.scopedRestBut spec4 c [cc4_scratch0]) ∗ (∃ r, prngReg c r)) := by
  unfold Pipeline.ΦA; rw [scopedRest4_split]; simp only [scr4, owns_whole]; try rfl

/-- The region's proof data; between points the accumulator is at what the point before left, at anything before the first. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := iprop(∃ a, ⌜∀ h : t.val ≠ 0, a = accAt4 V c (t.val - 1) (by omega)⌝ ∗ owns (c : Thread nD τ) scr4 fullShare a
    ∗ Pipeline.scopedRestBut spec4 c [cc4_scratch0] ∗ (∃ r, prngReg c r))
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = accAt4 V c t.val t.isLt := rfl

theorem before4 (c : Dev nD) (t : Fin cfg4.N) :
    (∀ d, (dat4 V c).before 0 t d = iblk4 V c 0 t) ∧ ∀ d, (dat4 V c).before 1 t d = iblk4 V c 1 t := by
  constructor <;> exact fun d =>
    ((dat4 V c).before_in_eq_fetched _ rfl (fun _ => rfl) (fun _ _ _ => rfl) (fun _ => rfl) t d).trans rfl

/-- The output block is stored exactly on the last steps. -/
theorem leaves4 (c : Dev nD) (t : Fin cfg4.N) (d) :
    owns (c : Thread nD τ) (st4_2 t) fullShare (if isLast4 (grid4.coords t) then accAt4 V c t.val t.isLt else (dat4 V c).before 2 t d)
      ⊢ (dat4 V c).leavesExact 2 t := by
  have h := sched4 t
  by_cases hl : isLast4 (grid4.coords t)
  · rw [if_pos hl] at h ⊢; unfold Dat.leavesExact; rw [h]; exact .rfl
  · rw [if_neg hl] at h ⊢; rw [Dat.leavesExact_idle _ 2 t h.1 h.2]; iintro H; iexists _; iexact H

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [(before4 V c t).1, (before4 V c t).2]
  dsimp only [dat4]
  iintro ⟨⟨%a, %ha, Ha, Hr, Hg⟩, Hd, ⟨%da, Hx⟩, ⟨%db, Hw⟩, ⟨%dc, Ho⟩⟩
  iapply (run4 c Set.univ _ _ _ _ _ _ _ _ _ (iblk4 V c 0 t) (iblk4 V c 1 t) _ a _)
  iframe Hx Hw Ho Ha
  iintro ⟨Hx, Hw, Ho, Ha⟩
  rw [accStep4_eq V c t a ha]
  isplitl [Ha Hr Hg]
  · iexists accAt4 V c t.val t.isLt; iframe Ha Hr Hg; ipureintro; exact fun _ => rfl
  isplitl [Hd]; · iexact Hd
  isplitl [Hx]; · iexact Hx
  isplitl [Hw]; · iexact Hw
  iapply leaves4 V c t dc; iexact Ho

theorem hin4 (c : Dev nD) : Pipeline.ΦA spec4 c ⊢ (dat4 V c).Φ 0 := by
  rw [PhiA4_eq]; dsimp only [dat4]
  iintro ⟨⟨⟨%a, Ha⟩, Hr⟩, Hg⟩
  iexists a; iframe Ha Hr Hg; ipureintro; exact fun h => absurd rfl h

theorem hout4 (c : Dev nD) : (dat4 V c).Φ (Fin.last cfg4.N) ⊢ Pipeline.ΦA spec4 c := by
  rw [PhiA4_eq]; dsimp only [dat4]
  iintro ⟨%a, -, Ha, Hr, Hg⟩
  iframe Hr Hg; iexists a; iexact Ha

end Cert.KernelIdeal.Fr

end
-- ==== Proof.KI.Bn5.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import Idealize.ShloMosaic.Lib.Pipeline.FrameBody
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]
  (V : (c : Dev nD) → (b : Ref sig .tc) → Buf (Elt F) ((c : Thread nD τ).loc b))

/-- Operand `w`'s block at grid point `t`, of the arrays as they are when the region starts. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rBlk5 : Rect S8192x128 := Rect.unit (s := S8192x128) ![0, 0] S8192x128.size inb_S8192x128_S8192x128_0_0
abbrev rRow5 : Rect S1x128 := Rect.unit (s := S1x128) ![0, 0] S1x128.size inb_S1x128_S1x128_0_0

/-- The body's one store, over the whole output block, of the normalised input blocks. -/
def out5_3 (x : Vec F S8192x128 .f32) (y z : Vec F S1x128 .f32) : Vec F S8192x128 .f32 :=
  View.canon [⟨rBlk5, k5_pay1 (View.ld x rBlk5) (View.ld y rRow5) (View.ld z rRow5)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) :
    (dat5 V c).after 3 t = out5_3 (iblk5 V c 0 t) (iblk5 V c 1 t) (iblk5 V c 2 t) := by dsimp only [dat5]

/-- The body reads its three input blocks and leaves them as they are; its one store covers the output block. -/
theorem body_obligation5 (c : Dev nD) : BodyObligation (dat5 (F := F) V c) (defs₀ (F := F)) Variants.none () Set.univ := fun t => by
  have ha d : (dat5 V c).before 0 t d = iblk5 V c 0 t := (dat5 V c).before_fetched 0 t (fetch5_0 t) d
  have hb d : (dat5 V c).before 1 t d = iblk5 V c 1 t := (dat5 V c).before_fetched 1 t (fetch5_1 t) d
  have hc d : (dat5 V c).before 2 t d = iblk5 V c 2 t := (dat5 V c).before_fetched 2 t (fetch5_2 t) d
  rw [bigSep_W5, bigSep_W5]
  simp only [ha, hb, hc]
  dsimp only [dat5]
  generalize iblk5 V c 0 t = x, iblk5 V c 1 t = y, iblk5 V c 2 t = z
  show _ ⊢ wp _ _ _ (bodyAt5 t) _
  simp only [bodyAt5, cc5__bn_kernel_eq_skeleton]
  unfold cc5__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x128.size (by rfl))

end Cert.KernelIdeal.Fr

end
-- ==== Proof.KI.Mm6.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import proofs.«147723_j3221225472529_1_alg».proof.Proof.Whole
import Idealize.ShloMosaic.Lib.Pipeline.TableIdle

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scr6 : Memref sig .tc .vmem S1024x10 .f32 := Memref.whole cc6_scratch0

/-- The body's two tests on the reduction coordinate. -/
abbrev isFirst6 (i : grid6.Coords) : Prop :=
  (Scalar.cmpi .ne (Scalar.extui (Scalar.cmpi .eq (BitVec.ofNat 32 (i 2).val) 0#32)) 0#32) = 1#1
abbrev isLast6 (i : grid6.Coords) : Prop := k6_cond2 i = 1#1

/-- One accumulation step: the accumulator (zero on a first step) plus the product of the activation block with the signs of the weight block. -/
def accStep6 (i : grid6.Coords) (x : Vec F S1024x1024 .f32) (w : Vec F S10x1024 .f32) (a : Vec F S1024x10 .f32) : Vec F S1024x10 .f32 :=
  k6_pay2 x w (if isFirst6 i then k6_pay1 else a)

set_option maxHeartbeats 4000000 in
/-- Whatever its two tests say, the body leaves the accumulator one step further, and the output block at it exactly on a last step. -/
theorem run6 (c : Dev nD) (E : Set ℕ) (i : grid6.Coords)
    (arg3 : Memref sig .tc .vmem S1024x1024 .f32) (harg3 : arg3.IsWhole) (arg4 : Memref sig .tc .vmem S10x1024 .f32) (harg4 : arg4.IsWhole)
    (arg5 : Memref sig .tc .vmem S1024x10 .f32) (harg5 : arg5.IsWhole) (arg6 : Memref sig .tc .vmem S1024x10 .f32) (harg6 : arg6.IsWhole)
    (x : Vec F S1024x1024 .f32) (w : Vec F S10x1024 .f32) (o a : Vec F S1024x10 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (if isLast6 i then accStep6 i x w a else o)
            ∗ owns (c : Thread nD τ) arg6 fullShare (accStep6 i x w a)) -∗ K ⟨⟩))
      ⊢ wp frame (wpE (defs₀ (F := F)) Variants.none c none) E (cc6__matmul_sign_kernel i arg3 harg3 arg4 harg4 arg5 harg5 arg6 harg6) K := by
  rw [cc6__matmul_sign_kernel_eq_skeleton, owns_eq_rep (c : Thread nD τ) arg3, owns_eq_rep (c : Thread nD τ) arg4]
  unfold accStep6 owns cc6__matmul_sign_kernel_skel
  iintro ⟨Hx, Hw, ⟨%fo, %ho, Ho⟩, ⟨%fa, %ha, Ha⟩, Hk⟩
  subst ho; subst ha
  by_cases hf : isFirst6 i <;> by_cases hl : isLast6 i <;>
  first
  | exact absurd hf hl
  | exact absurd hl hf
  | (
    (first | rw [if_pos hf] | rw [if_neg hf]); (first | rw [if_pos hl] | rw [if_neg hl])
    sl_exec (disch := first | exact hf | exact hl)
    sl_step
    iapply Hk
    iframe Hx Hw
    isplitl [Ho] <;> (
      iexists _; isplitr; swap; (· first | iexact Ho | iexact Ha)
      ipureintro; sl_unfold_words
      first | with_reducible rfl | (
        refine ((store_whole _ zz _ _ _).1 _).trans ?_
        try refine (store_whole _ zz _ _ _).2.trans ?_
        simp only [View.readAt_eq_ld, View.read_rep, View.readCov_unit_zero (S := S1024x10) _ zz, View.ld_unit_zero (S := S1024x1024) zz,
          View.ld_unit_zero (S := S10x1024) zz, View.ld_unit_zero (S := S1024x10) zz])))

theorem first_iff6 : ∀ t : Fin cfg6.N, isFirst6 (grid6.coords t) ↔ t.val % 4 = 0 := by decide +kernel
theorem sched6 : ∀ t : Fin cfg6.N, if isLast6 (grid6.coords t) then cfg6.idle 2 (grid6.coords t) = false
    else cfg6.idle 2 (grid6.coords t) = true ∧ (cfg6.win 2).flush t = false := by decide +kernel

/-- The accumulator after point `n`, by recursion on the point: one step from what the point before left, from zero at the first. -/
def accAt6 (c : Dev nD) : (n : ℕ) → n < cfg6.N → Vec F S1024x10 .f32
  | 0, h => accStep6 (grid6.coords ⟨0, h⟩) (iblk6 V c 0 ⟨0, h⟩) (iblk6 V c 1 ⟨0, h⟩) k6_pay1
  | n + 1, h => accStep6 (grid6.coords ⟨n + 1, h⟩) (iblk6 V c 0 ⟨n + 1, h⟩) (iblk6 V c 1 ⟨n + 1, h⟩) (accAt6 c n (Nat.lt_of_succ_lt h))

/-- The first point is a first step, so there the step does not read its start. -/
theorem accStep6_eq (c : Dev nD) (t : Fin cfg6.N) (a : Vec F S1024x10 .f32)
    (ha : ∀ h : t.val ≠ 0, a = accAt6 V c (t.val - 1) (by omega)) :
    accStep6 (grid6.coords t) (iblk6 V c 0 t) (iblk6 V c 1 t) a = accAt6 V c t.val t.isLt := by
  obtain ⟨n, hn⟩ := t
  cases n with
  | zero => unfold accAt6 accStep6; simp only [if_pos ((first_iff6 ⟨0, hn⟩).mpr (Nat.zero_mod _))]
  | succ n => rw [ha (Nat.succ_ne_zero n)]; rfl

theorem PhiA6_eq (c : Dev nD) :
    (Pipeline.ΦA spec6 c : sProp 𝕄)
      = iprop(iprop((∃ d, owns (c : Thread nD τ) scr6 fullShare d)
          ∗ Pipeline.scopedRestBut spec6 c [cc6_scratch0]) ∗ (∃ r, prngReg c r)) := by
  unfold Pipeline.ΦA; rw [scopedRest6_split]; simp only [scr6, owns_whole]; try rfl

/-- The region's proof data; between points the accumulator is at what the point before left, at anything before the first. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c t.val t.isLt
  Φ t := iprop(∃ a, ⌜∀ h : t.val ≠ 0, a = accAt6 V c (t.val - 1) (by omega)⌝ ∗ owns (c : Thread nD τ) scr6 fullShare a
    ∗ Pipeline.scopedRestBut spec6 c [cc6_scratch0] ∗ (∃ r, prngReg c r))
  q _ := fullShare
  owed _ := 0

theorem A_eq6 (c : Dev nD) (w : Fin cfg6.W) : (dat6 V c).A w = V c (Pipeline.arrRef spec6 w) := rfl
theorem after6_2 (c : Dev nD) (t : Fin cfg6.N) : (dat6 V c).after 2 t = accAt6 V c t.val t.isLt := rfl

theorem before6 (c : Dev nD) (t : Fin cfg6.N) :
    (∀ d, (dat6 V c).before 0 t d = iblk6 V c 0 t) ∧ ∀ d, (dat6 V c).before 1 t d = iblk6 V c 1 t := by
  constructor <;> exact fun d =>
    ((dat6 V c).before_in_eq_fetched _ rfl (fun _ => rfl) (fun _ _ _ => rfl) (fun _ => rfl) t d).trans rfl

/-- The output block is stored exactly on the last steps. -/
theorem leaves6 (c : Dev nD) (t : Fin cfg6.N) (d) :
    owns (c : Thread nD τ) (st6_2 t) fullShare (if isLast6 (grid6.coords t) then accAt6 V c t.val t.isLt else (dat6 V c).before 2 t d)
      ⊢ (dat6 V c).leavesExact 2 t := by
  have h := sched6 t
  by_cases hl : isLast6 (grid6.coords t)
  · rw [if_pos hl] at h ⊢; unfold Dat.leavesExact; rw [h]; exact .rfl
  · rw [if_neg hl] at h ⊢; rw [Dat.leavesExact_idle _ 2 t h.1 h.2]; iintro H; iexists _; iexact H

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  simp only [(before6 V c t).1, (before6 V c t).2]
  dsimp only [dat6]
  iintro ⟨⟨%a, %ha, Ha, Hr, Hg⟩, Hd, ⟨%da, Hx⟩, ⟨%db, Hw⟩, ⟨%dc, Ho⟩⟩
  iapply (run6 c Set.univ _ _ _ _ _ _ _ _ _ (iblk6 V c 0 t) (iblk6 V c 1 t) _ a _)
  iframe Hx Hw Ho Ha
  iintro ⟨Hx, Hw, Ho, Ha⟩
  rw [accStep6_eq V c t a ha]
  isplitl [Ha Hr Hg]
  · iexists accAt6 V c t.val t.isLt; iframe Ha Hr Hg; ipureintro; exact fun _ => rfl
  isplitl [Hd]; · iexact Hd
  isplitl [Hx]; · iexact Hx
  isplitl [Hw]; · iexact Hw
  iapply leaves6 V c t dc; iexact Ho

theorem hin6 (c : Dev nD) : Pipeline.ΦA spec6 c ⊢ (dat6 V c).Φ 0 := by
  rw [PhiA6_eq]; dsimp only [dat6]
  iintro ⟨⟨⟨%a, Ha⟩, Hr⟩, Hg⟩
  iexists a; iframe Ha Hr Hg; ipureintro; exact fun h => absurd rfl h

theorem hout6 (c : Dev nD) : (dat6 V c).Φ (Fin.last cfg6.N) ⊢ Pipeline.ΦA spec6 c := by
  rw [PhiA6_eq]; dsimp only [dat6]
  iintro ⟨%a, -, Ha, Hr, Hg⟩
  iframe Hr Hg; iexists a; iexact Ha

end Cert.KernelIdeal.Fr

end
-- ==== Proof.KI.Bn7.lean ====
import proofs.«147723_j3221225472529_1_alg».proof.Proof.Gen.KernelIdeal.Launch
import proofs.«147723_j3221225472529_1_alg».proof.Proof.Gen.KernelIdeal.Skeleton
import proofs.«147723_j3221225472529_1_alg».proof.Proof.Gen.KernelIdeal.Points
import Idealize.ShloMosaic.Lib.Pipeline.FrameBody
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]
  (V : (c : Dev nD) → (b : Ref sig .tc) → Buf (Elt F) ((c : Thread nD τ).loc b))

/-- Operand `w`'s block at grid point `t`, of the arrays as they are when the region starts. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rBlk7 : Rect S8192x10 := Rect.unit (s := S8192x10) ![0, 0] S8192x10.size inb_S8192x10_S8192x10_0_0
abbrev rRow7 : Rect S1x10 := Rect.unit (s := S1x10) ![0, 0] S1x10.size inb_S1x10_S1x10_0_0

/-- The body's one store, over the whole output block, of the normalised input blocks. -/
def out7_3 (x : Vec F S8192x10 .f32) (y z : Vec F S1x10 .f32) : Vec F S8192x10 .f32 :=
  View.canon [⟨rBlk7, k7_pay1 (View.ld x rBlk7) (View.ld y rRow7) (View.ld z rRow7)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (c : Dev nD) (t : Fin cfg7.N) :
    (dat7 V c).after 3 t = out7_3 (iblk7 V c 0 t) (iblk7 V c 1 t) (iblk7 V c 2 t) := by dsimp only [dat7]

/-- The body reads its three input blocks and leaves them as they are; its one store covers the output block. -/
theorem body_obligation7 (c : Dev nD) : BodyObligation (dat7 (F := F) V c) (defs₀ (F := F)) Variants.none () Set.univ := fun t => by
  have ha d : (dat7 V c).before 0 t d = iblk7 V c 0 t := (dat7 V c).before_fetched 0 t (fetch7_0 t) d
  have hb d : (dat7 V c).before 1 t d = iblk7 V c 1 t := (dat7 V c).before_fetched 1 t (fetch7_1 t) d
  have hc d : (dat7 V c).before 2 t d = iblk7 V c 2 t := (dat7 V c).before_fetched 2 t (fetch7_2 t) d
  rw [bigSep_W7, bigSep_W7]
  simp only [ha, hb, hc]
  dsimp only [dat7]
  generalize iblk7 V c 0 t = x, iblk7 V c 1 t = y, iblk7 V c 2 t = z
  show _ ⊢ wp _ _ _ (bodyAt7 t) _
  simp only [bodyAt7, cc7__bn_kernel_eq_skeleton]
  unfold cc7__bn_kernel_skel owns
  iintro ⟨HΦ, Ho, ⟨%da, %fa, %ea, Ha⟩, ⟨%db, %fb, %eb, Hb⟩, ⟨%dc, %fc, %ec, Hc⟩, ⟨%dd, %fd, -, Hd⟩⟩
  subst ea eb ec
  sl_exec
  sl_step
  iframe HΦ
  isplitl [Ho]; · iexact Ho
  isplitl [Ha]; · iexists fa; iframe Ha; ipureintro; rfl
  isplitl [Hb]; · iexists fb; iframe Hb; ipureintro; rfl
  isplitl [Hc]; · iexists fc; iframe Hc; ipureintro; rfl
  iexists _; iframe Hd; ipureintro
  exact View.read_writes_eq_canon _ _ _ (View.cover_of_tiled _ S8192x10.size (by rfl))

end Cert.KernelIdeal.Fr

end
-- ==== Proof.KI.RunKI.lean ====
import proofs.«147723_j3221225472529_1_alg».proof.Proof.KI.Mm0
import proofs.«147723_j3221225472529_1_alg».proof.Proof.KI.Bn1
import proofs.«147723_j3221225472529_1_alg».proof.Proof.KI.Mm2
import proofs.«147723_j3221225472529_1_alg».proof.Proof.KI.Bn3
import proofs.«147723_j3221225472529_1_alg».proof.Proof.KI.Mm4
import proofs.«147723_j3221225472529_1_alg».proof.Proof.KI.Bn5
import proofs.«147723_j3221225472529_1_alg».proof.Proof.KI.Mm6
import proofs.«147723_j3221225472529_1_alg».proof.Proof.KI.Bn7
import proofs.«147723_j3221225472529_1_alg».proof.Proof.Gen.KernelIdeal.Regions
import Idealize.ShloMosaic.Lib.Pipeline.RegionsLoop
import Idealize.ShloMosaic.Lib.Pipeline.FrameSuffix

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev VR0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev VR3 : (c : Dev nD) → (b : Ref sig .tc) → Buf (Elt F) ((c : Thread nD τ).loc b) := fun c b => W3 m c b
def W4 (c : Dev nD) : Valuation τ sig (Elt F) :=
  Pipeline.withArrays spec2 c (W3 m c) fun w => (dat2 (VR3 m) c).arrAt w cfg2.N
theorem W4_arr (c : Dev nD) (w : Fin cfg2.W) :
    W4 m c (Proc.devRef .tc (Pipeline.arrRef spec2 w)) = (dat2 (VR3 m) c).arrAt w cfg2.N :=
  Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) :=
  Pipeline.withArrays_of_ne spec2 c _ _ b hb
abbrev W5 : Dev nD → Valuation τ sig (Elt F) := fun c => StableHlo.after hostOps3 (W4 m c)
abbrev VR5 : (c : Dev nD) → (b : Ref sig .tc) → Buf (Elt F) ((c : Thread nD τ).loc b) := fun c b => W5 m c b
def W6 (c : Dev nD) : Valuation τ sig (Elt F) :=
  Pipeline.withArrays spec3 c (W5 m c) fun w => (dat3 (VR5 m) c).arrAt w cfg3.N
theorem W6_arr (c : Dev nD) (w : Fin cfg3.W) :
    W6 m c (Proc.devRef .tc (Pipeline.arrRef spec3 w)) = (dat3 (VR5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev VR6 : (c : Dev nD) → (b : Ref sig .tc) → Buf (Elt F) ((c : Thread nD τ).loc b) := fun c b => W6 m c b
def W7 (c : Dev nD) : Valuation τ sig (Elt F) :=
  Pipeline.withArrays spec4 c (W6 m c) fun w => (dat4 (VR6 m) c).arrAt w cfg4.N
theorem W7_arr (c : Dev nD) (w : Fin cfg4.W) :
    W7 m c (Proc.devRef .tc (Pipeline.arrRef spec4 w)) = (dat4 (VR6 m) c).arrAt w cfg4.N :=
  Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) :=
  Pipeline.withArrays_of_ne spec4 c _ _ b hb
abbrev W8 : Dev nD → Valuation τ sig (Elt F) := fun c => StableHlo.after hostOps5 (W7 m c)
abbrev VR8 : (c : Dev nD) → (b : Ref sig .tc) → Buf (Elt F) ((c : Thread nD τ).loc b) := fun c b => W8 m c b
def W9 (c : Dev nD) : Valuation τ sig (Elt F) :=
  Pipeline.withArrays spec5 c (W8 m c) fun w => (dat5 (VR8 m) c).arrAt w cfg5.N
theorem W9_arr (c : Dev nD) (w : Fin cfg5.W) :
    W9 m c (Proc.devRef .tc (Pipeline.arrRef spec5 w)) = (dat5 (VR8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb
abbrev VR9 : (c : Dev nD) → (b : Ref sig .tc) → Buf (Elt F) ((c : Thread nD τ).loc b) := fun c b => W9 m c b
def W10 (c : Dev nD) : Valuation τ sig (Elt F) :=
  Pipeline.withArrays spec6 c (W9 m c) fun w => (dat6 (VR9 m) c).arrAt w cfg6.N
theorem W10_arr (c : Dev nD) (w : Fin cfg6.W) :
    W10 m c (Proc.devRef .tc (Pipeline.arrRef spec6 w)) = (dat6 (VR9 m) c).arrAt w cfg6.N :=
  Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) :=
  Pipeline.withArrays_of_ne spec6 c _ _ b hb
abbrev W11 : Dev nD → Valuation τ sig (Elt F) := fun c => StableHlo.after hostOps7 (W10 m c)
abbrev VR11 : (c : Dev nD) → (b : Ref sig .tc) → Buf (Elt F) ((c : Thread nD τ).loc b) := fun c b => W11 m c b
def W12 (c : Dev nD) : Valuation τ sig (Elt F) :=
  Pipeline.withArrays spec7 c (W11 m c) fun w => (dat7 (VR11 m) c).arrAt w cfg7.N
theorem W12_arr (c : Dev nD) (w : Fin cfg7.W) :
    W12 m c (Proc.devRef .tc (Pipeline.arrRef spec7 w)) = (dat7 (VR11 m) c).arrAt w cfg7.N :=
  Pipeline.withArrays_arr spec7 launch7.win.arr_inj c _ _ w
theorem W12_of_ne (c : Dev nD) (b : Ref sig .tc) (hb : ∀ w, Pipeline.arrRef spec7 w ≠ b) :
    W12 m c (Proc.devRef .tc b) = W11 m c (Proc.devRef .tc b) :=
  Pipeline.withArrays_of_ne spec7 c _ _ b hb

def pdatsF : (p : Fin 8) → (c : Dev nD) → Dat τ (Elt F) Unit ℕ (UR sig nD τ) ℕ (Pipeline.pin (pcfgs (F := F)) adm p) c
  | ⟨0, _⟩ => dat0 (VR0 m)
  | ⟨1, _⟩ => dat1 (VR2 m)
  | ⟨2, _⟩ => dat2 (VR3 m)
  | ⟨3, _⟩ => dat3 (VR5 m)
  | ⟨4, _⟩ => dat4 (VR6 m)
  | ⟨5, _⟩ => dat5 (VR8 m)
  | ⟨6, _⟩ => dat6 (VR9 m)
  | ⟨7, _⟩ => dat7 (VR11 m)
abbrev VarsF : Variants := Variants.none
abbrev LF : GSem nD τ sig → Finset Unit := fun _ => ∅
abbrev lvF : GSem nD τ sig → Unit → ℕ := fun _ _ => 0
abbrev Rr (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarsF LF lvF :=
  Pipeline.HostSeg.ofOps _ _ _ _ _ (Pipeline.ucRefs τ sig) ops
    (fun op h => Pipeline.sub_ucRefs op ((List.forall_iff_forall_mem.mp hsub) op h))
    (List.forall_iff_forall_mem.mp hfresh) W Rr
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Across a region only its own arrays change. -/
def regOf (p : Fin 8) (lf : Pipeline.LaunchFacts (nD := nD) (τ := τ) cfgs p) (V : Dev nD → Valuation τ sig (Elt F))
    (hbody : ∀ c, BodyObligation (pdatsF m p c) (defs₀ (F := F)) VarsF () Set.univ)
    (hin : ∀ c, Pipeline.ΦA (cfgs p).spec c ⊢ (pdatsF m p c).Φ 0 := by exact fun _ => .rfl)
    (hout : ∀ c, (pdatsF m p c).Φ (Fin.last _) ⊢ Pipeline.ΦA (cfgs p).spec c := by exact fun _ => .rfl)
    (hA : ∀ c w, (pdatsF m p c).A w = V c (Proc.devRef .tc (Pipeline.arrRef (cfgs p).spec w)) := by exact fun _ _ => rfl)
    (hq : ∀ c w, (pdatsF m p c).q w = fullShare := by exact fun _ _ => rfl)
    (howed : ∀ c t, (pdatsF m p c).owed t = 0 := by exact fun _ _ => rfl)
    (hrec : ∀ c, (pdatsF m p c).recorded 0 = Set.univ := by exact fun _ => rfl) :
    Pipeline.RegionSeg (pcfgs (F := F)) adm (pdatsF m) () defs₀ VarsF LF lvF p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ LF lvF p howed
  pre c := iprop(StableHlo.held (c : Thread nD τ) (Pipeline.ucRefs τ sig) (V c) ∗ Rr c)
  post c := iprop(StableHlo.held (c : Thread nD τ) (Pipeline.ucRefs τ sig)
    (Pipeline.withArrays (cfgs p).spec c (V c) fun w => (pdatsF m p c).arrAt w (cfgs p).N) ∗ Rr c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdatsF m) lf.win lf.arr_whole c
      ((pdatsF m p c).share_full (hq c)) (fun b => V c b) (hA c)
    rw [Pipeline.unscopedBufs_held] at hsplit
    iintro ⟨⟨Hub, Hp, HO⟩, -⟩
    icases hsplit $$ Hub with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c ▸ trivial)
      rw [howed c]; iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdatsF m) ((pdatsF m p c).share_full (hq c)) (fun b => V c b)
      (fun b => Pipeline.withArrays (cfgs p).spec c (V c) (fun w => (pdatsF m p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c]; iexact HO

abbrev segsF : List (Pipeline.Seg (pcfgs (F := F)) adm (pdatsF m) () defs₀ VarsF LF lvF) :=
  [ .region (regOf m 0 launch0 (W0 m) (body_obligation0 _) (hin0 _) (hout0 _)),
    .host (hsegF hostOps1 hostOps1_sub hostOps1_fresh (W1 m)),
    .region (regOf m 1 launch1 (W2 m) (body_obligation1 _)),
    .region (regOf m 2 launch2 (W3 m) (body_obligation2 _) (hin2 _) (hout2 _)),
    .host (hsegF hostOps3 hostOps3_sub hostOps3_fresh (W4 m)),
    .region (regOf m 3 launch3 (W5 m) (body_obligation3 _)),
    .region (regOf m 4 launch4 (W6 m) (body_obligation4 _) (hin4 _) (hout4 _)),
    .host (hsegF hostOps5 hostOps5_sub hostOps5_fresh (W7 m)),
    .region (regOf m 5 launch5 (W8 m) (body_obligation5 _)),
    .region (regOf m 6 launch6 (W9 m) (body_obligation6 _) (hin6 _) (hout6 _)),
    .host (hsegF hostOps7 hostOps7_sub hostOps7_fresh (W10 m)),
    .region (regOf m 7 launch7 (W11 m) (body_obligation7 _)) ]

set_option backward.isDefEq.respectTransparency.types false in
/-- Every run ends, without fault, at the last boundary's contents. -/
theorem runF (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W12 m c b) :=
  Pipeline.θ_run_regions_kit (pcfgs (F := F)) adm (pdatsF m) () cellOf_inj emb₁ defs₀ VarsF LF lvF m ρ main (segsF m)
    (fun c Q => by rw [show main (F := F) c = Pipeline.Seg.run (segsF m) from main_segs _ _ _ _ _ _ _ _ _ _ _ _ _ _ _ _ _ _ rfl rfl rfl rfl c])
    (by simp only [segsF, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := fun c => iprop(StableHlo.held (c : Thread nD τ) (Pipeline.ucRefs τ sig) (W0 m c) ∗ Rr c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach LF lvF fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

end Cert.KernelIdeal.Fr

end
-- ==== Proof.KI.FoldArgs.lean ====
import proofs.«147723_j3221225472529_1_alg».proof.Proof.KI.RunKI

set_option maxRecDepth 16384

noncomputable section

namespace Cert.KernelIdeal.Fr

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

/-- Across a region only its output arrays change. -/
theorem keep_of {W : ℕ} {X' X : Valuation τ sig (Elt F)} {arr : Fin W → Ref sig .tc} {out : Fin W → Bool}
    (hin : ∀ w, out w = false → X' (Proc.devRef .tc (arr w)) = X (Proc.devRef .tc (arr w)))
    (hne : ∀ b, (∀ w, arr w ≠ b) → X' (Proc.devRef .tc b) = X (Proc.devRef .tc b))
    {b : Ref sig .tc} (hb : ∀ w, arr w = b → out w = false) : X' (Proc.devRef .tc b) = X (Proc.devRef .tc b) := by
  by_cases h : ∃ w, arr w = b
  · obtain ⟨w, rfl⟩ := h; exact hin w (hb w rfl)
  · exact hne b fun w e => h ⟨w, e⟩

/-- The argument arrays: no item of the program writes one. -/
abbrev args : List (Ref sig .tc) := [main_arg0, main_arg1, main_arg2, main_arg3, main_arg4, main_arg5, main_arg6,
  main_arg7, main_arg8, main_arg9, main_arg10, main_arg11, main_arg12]

theorem W1_args : ∀ b ∈ args, W1 m c (Proc.devRef .tc b) = m ((c : Thread nD τ).loc b) := fun b hb =>
  (keep_of (X := W0 m c) (fun w hw => (W1_arr m c w).trans (((dat0 (VR0 m) c).arrAt_in w hw _).trans (A_eq0 (VR0 m) c w)))
    (W1_of_ne m c) ((by decide : ∀ b ∈ args, ∀ w, Pipeline.arrRef spec0 w = b → (win0 w).isOut = false) b hb)).trans rfl
theorem W3_args : ∀ b ∈ args, W3 m c (Proc.devRef .tc b) = m ((c : Thread nD τ).loc b) := fun b hb =>
  (W3_of_ne m c b ((by decide : ∀ b ∈ args, ∀ w, Pipeline.arrRef spec1 w ≠ b) b hb)).trans <|
    (StableHlo.after_of_writes_sub hostOps1 _ hostOps1_writes ((by decide : ∀ b ∈ args, b ∉ hostOps1_W) b hb)).trans (W1_args m c b hb)
theorem W4_args : ∀ b ∈ args, W4 m c (Proc.devRef .tc b) = m ((c : Thread nD τ).loc b) := fun b hb =>
  (keep_of (X := W3 m c) (fun w hw => (W4_arr m c w).trans (((dat2 (VR3 m) c).arrAt_in w hw _).trans (A_eq2 (VR3 m) c w)))
    (W4_of_ne m c) ((by decide : ∀ b ∈ args, ∀ w, Pipeline.arrRef spec2 w = b → (win2 w).isOut = false) b hb)).trans (W3_args m c b hb)
theorem W6_args : ∀ b ∈ args, W6 m c (Proc.devRef .tc b) = m ((c : Thread nD τ).loc b) := fun b hb =>
  (W6_of_ne m c b ((by decide : ∀ b ∈ args, ∀ w, Pipeline.arrRef spec3 w ≠ b) b hb)).trans <|
    (StableHlo.after_of_writes_sub hostOps3 _ hostOps3_writes ((by decide : ∀ b ∈ args, b ∉ hostOps3_W) b hb)).trans (W4_args m c b hb)
theorem W7_args : ∀ b ∈ args, W7 m c (Proc.devRef .tc b) = m ((c : Thread nD τ).loc b) := fun b hb =>
  (keep_of (X := W6 m c) (fun w hw => (W7_arr m c w).trans (((dat4 (VR6 m) c).arrAt_in w hw _).trans (A_eq4 (VR6 m) c w)))
    (W7_of_ne m c) ((by decide : ∀ b ∈ args, ∀ w, Pipeline.arrRef spec4 w = b → (win4 w).isOut = false) b hb)).trans (W6_args m c b hb)
theorem W9_args : ∀ b ∈ args, W9 m c (Proc.devRef .tc b) = m ((c : Thread nD τ).loc b) := fun b hb =>
  (W9_of_ne m c b ((by decide : ∀ b ∈ args, ∀ w, Pipeline.arrRef spec5 w ≠ b) b hb)).trans <|
    (StableHlo.after_of_writes_sub hostOps5 _ hostOps5_writes ((by decide : ∀ b ∈ args, b ∉ hostOps5_W) b hb)).trans (W7_args m c b hb)
theorem W10_args : ∀ b ∈ args, W10 m c (Proc.devRef .tc b) = m ((c : Thread nD τ).loc b) := fun b hb =>
  (keep_of (X := W9 m c) (fun w hw => (W10_arr m c w).trans (((dat6 (VR9 m) c).arrAt_in w hw _).trans (A_eq6 (VR9 m) c w)))
    (W10_of_ne m c) ((by decide : ∀ b ∈ args, ∀ w, Pipeline.arrRef spec6 w = b → (win6 w).isOut = false) b hb)).trans (W9_args m c b hb)
theorem W12_args : ∀ b ∈ args, W12 m c (Proc.devRef .tc b) = m ((c : Thread nD τ).loc b) := fun b hb =>
  (W12_of_ne m c b ((by decide : ∀ b ∈ args, ∀ w, Pipeline.arrRef spec7 w ≠ b) b hb)).trans <|
    (StableHlo.after_of_writes_sub hostOps7 _ hostOps7_writes ((by decide : ∀ b ∈ args, b ∉ hostOps7_W) b hb)).trans (W10_args m c b hb)

/-- So at the last boundary every argument is as launched. -/
theorem args_kept {mem : (ℓ : Loc nD τ sig) → Buf (Elt F) ℓ}
    (h : ∀ b ∈ Pipeline.ucRefs τ sig, mem ((c : Thread nD τ).1, b) = W12 m c b) :
    args.Forall fun b => mem ((c : Thread nD τ).loc b) = m ((c : Thread nD τ).loc b) :=
  List.forall_iff_forall_mem.mpr fun b hb =>
    (h _ (mem_ucF b ((by decide : ∀ b ∈ args, ¬ (Proc.devRef .tc b : DevRef τ sig).isScoped) b hb))).trans (W12_args m c b hb)

end Cert.KernelIdeal.Fr

end
-- ==== Proof.Layers.lean ====
import Idealize.ShloMosaic.PureOps.Ideal
import Idealize.ShloMosaic.Lib.ValueIdx

noncomputable section

namespace Cert.Layers

open Idealize.ShloMosaic Idealize.ShloMosaic.ValueIdx

abbrev Mat (a b : Nat) : Type := (⟨2, ![a, b]⟩ : Shape).Idx → EReal
abbrev Vct (a : Nat) : Type := (⟨1, ![a]⟩ : Shape).Idx → EReal

abbrev zeroW : EReal := Ideal.ofBits .f32 0x00000000#32
abbrev oneW : EReal := Ideal.ofBits .f32 0x3F800000#32
abbrev negOneW : EReal := Ideal.ofBits .f32 0xBF800000#32
abbrev batchW : EReal := Ideal.ofBits .f32 0x46000000#32
abbrev epsW : EReal := Ideal.ofBits .f32 0x3727C5AC#32

/-- sign x, with sign 0 = +1. -/
def sgn (x : EReal) : EReal := Scalar.select (Ideal.cmp .oge x zeroW) oneW negOneW

/-- (x · sign(w)ᵀ)[i, n] = ∑ₖ x[i, k] · sign w[n, k]. -/
def mm {M K N : Nat} (x : Mat M K) (w : Mat N K) : Mat M N :=
  fun j => ∑ k : Fin K, x (ix2 (j 0) k) * sgn (w (ix2 (j 1) k))

/-- The mean of column n over the rows. -/
def colMean {M N : Nat} (h : Mat M N) (n : Fin N) : EReal :=
  Ideal.div (∑ i : Fin M, h (ix2 i n)) batchW

/-- The mean square deviation of column n from its mean. -/
def colVar {M N : Nat} (h : Mat M N) (n : Fin N) : EReal :=
  Ideal.div (∑ i : Fin M, (h (ix2 i n) - colMean h n) * (h (ix2 i n) - colMean h n)) batchW

/-- Each column centred, scaled by γ / √(variance + ε), shifted by β. -/
def bn {M N : Nat} (h : Mat M N) (g b : Vct N) : Mat M N :=
  fun j => (h j - colMean h (j 1)) * (g (ix1 (j 1)) * Ideal.rsqrt (colVar h (j 1) + epsW)) + b (ix1 (j 1))

def bnSgn {M N : Nat} (h : Mat M N) (g b : Vct N) : Mat M N := fun j => sgn (bn h g b j)

/-- Four layers, product then normalisation; all but the last end in the sign. -/
def net (x : Mat 8192 784) (w1 : Mat 4096 784) (w2 w3 : Mat 4096 4096) (w4 : Mat 10 4096)
    (g1 b1 g2 b2 g3 b3 : Vct 4096) (g4 b4 : Vct 10) : Mat 8192 10 :=
  bn (mm (bnSgn (mm (bnSgn (mm (bnSgn (mm x w1) g1 b1) w2) g2 b2) w3) g3 b3) w4) g4 b4

end Cert.Layers

end
-- ==== Proof.KI.BnAlg.lean ====
import proofs.«147723_j3221225472529_1_alg».proof.Proof.Gen.KernelIdeal
import proofs.«147723_j3221225472529_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.TcCoe
open Cert.KernelIdeal Cert.KernelIdeal.Gen
open Idealize.ShloMosaic.ValueIdx
open Cert.Layers

theorem rsqrt_apply {s : Shape} {φ : FTy} (a : FVec Ideal s φ) (i : s.Idx) : rsqrt a i = Ideal.rsqrt (a i) := rfl

theorem off00_eq : (![0, 0] : Fin 2 → Nat) = fun _ => 0 := funext fun a => by fin_cases a <;> rfl

/-- The normalisation of a column reads that column, its scale and its shift, and nothing else. -/
theorem bn_congr_col {M N N' : Nat} (h : Mat M N) (g b : Vct N) (h' : Mat M N') (g' b' : Vct N') (n : Fin N) (n' : Fin N')
    (hh : ∀ i : Fin M, h (ix2 i n) = h' (ix2 i n')) (hg : g (ix1 n) = g' (ix1 n')) (hb : b (ix1 n) = b' (ix1 n'))
    (r : Fin M) : bn h g b (ix2 r n) = bn h' g' b' (ix2 r n') := by
  have hm : colMean h n = colMean h' n' := by simp only [colMean, hh]
  have hv : colVar h n = colVar h' n' := by simp only [colVar, hm, hh]
  show (h (ix2 r n) - colMean h n) * (g (ix1 n) * Ideal.rsqrt (colVar h n + epsW)) + b (ix1 n) = _
  rw [hm, hv, hh r, hg, hb]; rfl

theorem bnSgn_congr_col {M N N' : Nat} (h : Mat M N) (g b : Vct N) (h' : Mat M N') (g' b' : Vct N') (n : Fin N) (n' : Fin N')
    (hh : ∀ i : Fin M, h (ix2 i n) = h' (ix2 i n')) (hg : g (ix1 n) = g' (ix1 n')) (hb : b (ix1 n) = b' (ix1 n'))
    (r : Fin M) : bnSgn h g b (ix2 r n) = bnSgn h' g' b' (ix2 r n') :=
  congrArg sgn (bn_congr_col h g b h' g' b' n n' hh hg hb r)

/-- The sum over the rows, laid out as one row and divided by the batch size, is the row of the columns' means. -/
theorem colmean_row {M N : Nat} (v : FVec Ideal ⟨2, ![M, N]⟩ .f32) (hr : (⟨2, ![M, N]⟩ : Shape).Reduces [0] ⟨1, ![N]⟩)
    (hc : (⟨1, ![N]⟩ : Shape).ShapeCasts ⟨2, ![1, N]⟩) (hφ : FKind.Formats .f32) (hacc : (0x00000000#32 : BitVec 32) = 0x00000000#32) :
    divf (shapeCast ⟨2, ![1, N]⟩ (multiReduction (F := Ideal) .add [0] ⟨1, ![N]⟩ v 0x00000000#32 hr hφ hacc) hc)
        (broadcast ⟨2, ![1, N]⟩ (FloatOps.ofBits (F := Ideal) .f32 0x46000000#32))
      = fun j => colMean v (j 1) := by
  funext j
  rw [eq_ix2 j]
  exact congrArg (Ideal.div · batchW) ((shapeCast_a_1a_apply _ hc _ _).trans
    ((Ideal.multiReduction_add_single v _ hr hφ hacc _).trans
      (Finset.sum_congr rfl fun i _ => congrArg v (funext fun a => match a with | ⟨0, _⟩ => rfl | ⟨1, _⟩ => rfl))))

/-- The mean of the squared deviations from the row of means is the row of the columns' variances. -/
theorem colvar_row {M N : Nat} (h : FVec Ideal ⟨2, ![M, N]⟩ .f32) (hb : (⟨2, ![1, N]⟩ : Shape).Broadcasts ⟨2, ![M, N]⟩) (n : Fin N) :
    colMean (mulf (subf h (broadcastTo ⟨2, ![M, N]⟩ (fun j : (⟨2, ![1, N]⟩ : Shape).Idx => colMean h (j 1)) hb))
          (subf h (broadcastTo ⟨2, ![M, N]⟩ (fun j : (⟨2, ![1, N]⟩ : Shape).Idx => colMean h (j 1)) hb))) n
      = colVar h n := by
  unfold colVar
  conv_lhs => unfold colMean
  simp only [mulf_apply, subf_apply, broadcastTo_1b_ab_apply]
  rfl

end Cert.KernelIdeal.Fr

end
-- ==== Proof.KI.BnVal1.lean ====
import proofs.«147723_j3221225472529_1_alg».proof.Proof.KI.Bn1
import proofs.«147723_j3221225472529_1_alg».proof.Proof.KI.BnAlg

noncomputable section

namespace Cert.KernelIdeal.Fr

open Idealize.ShloMosaic Idealize.ShloMosaic.TcCoe
open Cert.KernelIdeal Cert.KernelIdeal.Gen
open Idealize.ShloMosaic.ValueIdx
open Cert.Layers

/-- What the body stores, read at an index of its block: the layer's function of the block, column by column. -/
theorem pay1_apply (x : Vec Ideal S8192x128 .f32) (y z : Vec Ideal S1x128 .f32) (r : Fin 8192) (q : Fin 128) :
    k1_pay1 x y z (ix2 r q) = bnSgn (M := 8192) (N := 128) x (fun n => y (ix2 0 (n 0))) (fun n => z (ix2 0 (n 0))) (ix2 r q) := by
  unfold k1_pay1
  simp only [shapeCast_self]
  rw [colmean_row, colmean_row]
  simp only [colvar_row, select_apply, cmpf_apply, broadcast_apply, addf_apply, mulf_apply, subf_apply, broadcastTo_1b_ab_apply, rsqrt_apply]
  rfl

/-- At grid point t every operand's block is block (0, t) of its array. -/
theorem idx1 : ∀ (t : Fin grid1.N) (w : Fin 4) (a : Fin (win1 w).shape.rank),
    (win1 w).index t a = if a.val = 0 then 0 else t.val := by decide +kernel

/-- So an entry of an operand's block at point t keeps its row and lies t blocks further along the columns. -/
theorem emb1 (w : Fin cfg1.W) (t : Fin cfg1.N) (y : ((cfg1.win w).xblock (cfg1.grid.coords t)).Idx) (a : Fin (cfg1.win w).shape.rank) :
    (((cfg1.win w).rect t).emb y a : ℕ) = if a.val = 0 then (y a : ℕ) else t.val * (cfg1.win w).size a + y a := by
  have h : (cfg1.win w).index t a = _ := idx1 t w a
  rw [(cfg1.win w).rect_emb_val t y a, h]
  split <;> simp

variable (V : (c : Dev nD) → (b : Ref sig .tc) → Buf (Elt Ideal) ((c : Thread nD τ).loc b))

/-- Column n of the output array lies in block n / 128. -/
theorem covered1_3 (i : S8192x4096.Idx) : ∃ t : Fin cfg1.N, (cfg1.win 3).flush t = true ∧ i ∈ ((cfg1.win 3).blk t).view.set := by
  have hi : (i 1).val < 4096 := (i 1).isLt
  have hT : (i 1).val / 128 < cfg1.N := by rw [show cfg1.N = _ from N_1]; omega
  have e : ((cfg1.win 3).blk ⟨_, hT⟩).view.emb (ix2 (i 0) ⟨(i 1).val % 128, Nat.mod_lt _ (by decide)⟩) = i :=
    Shape.idx_ext₂ (emb1 3 _ _ 0) ((emb1 3 _ _ 1).trans (Nat.div_add_mod' _ _))
  exact ⟨_, flush1_3 _, e ▸ View.emb_mem_set _ _⟩

/-- The layer's function reads one column at a time, so what point t stores is block t of that function of the whole
    arrays; the blocks cover the output array. -/
theorem final1 (c : Dev nD) :
    (dat1 (F := Ideal) V c).arrAt 3 cfg1.N
      = Cert.Layers.bnSgn (M := 8192) (N := 4096) (V c main_v0) (fun n => V c main_v1 (ValueIdx.ix2 0 (n 0))) (fun n => V c main_v2 (ValueIdx.ix2 0 (n 0))) :=
  (dat1 V c).arrAt_eq_of_cover 3 _ (fun t _ => by
    show (cfg1.win 3).cut (grid1.coords t) ((dat1 V c).after 3 t) = _
    rw [after1_3, out1_3, View.canon_unit_zero off00_eq]
    simp only [View.ld_unit_zero (S := S8192x128) off00_eq, View.ld_unit_zero (S := S1x128) off00_eq]
    funext j
    obtain ⟨r, q, rfl⟩ : ∃ (r : Fin 8192) (q : Fin 128), j = ix2 r q := ⟨j 0, j 1, eq_ix2 j⟩
    show k1_pay1 (F := Ideal) _ _ _ (ix2 r q) = bnSgn (M := 8192) (N := 4096) (V c main_v0) (fun n => V c main_v1 (ix2 0 (n 0))) (fun n => V c main_v2 (ix2 0 (n 0)))
      (((cfg1.win 0).blk t).view.emb (ix2 r q))
    obtain ⟨n, hn⟩ : ∃ n : Fin 4096, t.val * 128 + q.val = n := ⟨((cfg1.win 3).blk t).view.emb (ix2 r q) 1, (emb1 3 t (ix2 r q) 1).symm⟩
    have ea (i : Fin 8192) : ((cfg1.win 0).blk t).view.emb (ix2 i q) = (ix2 i n : S8192x4096.Idx) :=
      Shape.idx_ext₂ (emb1 0 t _ 0) ((emb1 0 t _ 1).trans hn)
    have eb : ((cfg1.win 1).blk t).view.emb (ix2 0 q) = (ix2 0 n : S1x4096.Idx) :=
      Shape.idx_ext₂ (emb1 1 t _ 0) ((emb1 1 t _ 1).trans hn)
    rw [ea r, pay1_apply]
    exact bnSgn_congr_col _ _ _ _ _ _ q n
      (fun i => by rw [← ea i]; rfl) (by rw [← eb]; rfl) (by rw [← eb]; rfl) r) covered1_3

end Cert.KernelIdeal.Fr

end
-- ==== Proof.KI.BnVal3.lean ====
import proofs.«147723_j3221225472529_1_alg».proof.Proof.KI.Bn3
import proofs.«147723_j3221225472529_1_alg».proof.Proof.KI.BnAlg

noncomputable section

namespace Cert.KernelIdeal.Fr

open Idealize.ShloMosaic Idealize.ShloMosaic.TcCoe
open Cert.KernelIdeal Cert.KernelIdeal.Gen
open Idealize.ShloMosaic.ValueIdx
open Cert.Layers

/-- What the body stores, read at an index of its block: the layer's function of the block, column by column. -/
theorem pay3_apply (x : Vec Ideal S8192x128 .f32) (y z : Vec Ideal S1x128 .f32) (r : Fin 8192) (q : Fin 128) :
    k3_pay1 x y z (ix2 r q) = bnSgn (M := 8192) (N := 128) x (fun n => y (ix2 0 (n 0))) (fun n => z (ix2 0 (n 0))) (ix2 r q) := by
  unfold k3_pay1
  simp only [shapeCast_self]
  rw [colmean_row, colmean_row]
  simp only [colvar_row, select_apply, cmpf_apply, broadcast_apply, addf_apply, mulf_apply, subf_apply, broadcastTo_1b_ab_apply, rsqrt_apply]
  rfl

/-- At grid point t every operand's block is block (0, t) of its array. -/
theorem idx3 : ∀ (t : Fin grid3.N) (w : Fin 4) (a : Fin (win3 w).shape.rank),
    (win3 w).index t a = if a.val = 0 then 0 else t.val := by decide +kernel

/-- So an entry of an operand's block at point t keeps its row and lies t blocks further along the columns. -/
theorem emb3 (w : Fin cfg3.W) (t : Fin cfg3.N) (y : ((cfg3.win w).xblock (cfg3.grid.coords t)).Idx) (a : Fin (cfg3.win w).shape.rank) :
    (((cfg3.win w).rect t).emb y a : ℕ) = if a.val = 0 then (y a : ℕ) else t.val * (cfg3.win w).size a + y a := by
  have h : (cfg3.win w).index t a = _ := idx3 t w a
  rw [(cfg3.win w).rect_emb_val t y a, h]
  split <;> simp

variable (V : (c : Dev nD) → (b : Ref sig .tc) → Buf (Elt Ideal) ((c : Thread nD τ).loc b))

/-- Column n of the output array lies in block n / 128. -/
theorem covered3_3 (i : S8192x4096.Idx) : ∃ t : Fin cfg3.N, (cfg3.win 3).flush t = true ∧ i ∈ ((cfg3.win 3).blk t).view.set := by
  have hi : (i 1).val < 4096 := (i 1).isLt
  have hT : (i 1).val / 128 < cfg3.N := by rw [show cfg3.N = _ from N_3]; omega
  have e : ((cfg3.win 3).blk ⟨_, hT⟩).view.emb (ix2 (i 0) ⟨(i 1).val % 128, Nat.mod_lt _ (by decide)⟩) = i :=
    Shape.idx_ext₂ (emb3 3 _ _ 0) ((emb3 3 _ _ 1).trans (Nat.div_add_mod' _ _))
  exact ⟨_, flush3_3 _, e ▸ View.emb_mem_set _ _⟩

/-- The layer's function reads one column at a time, so what point t stores is block t of that function of the whole
    arrays; the blocks cover the output array. -/
theorem final3 (c : Dev nD) :
    (dat3 (F := Ideal) V c).arrAt 3 cfg3.N
      = Cert.Layers.bnSgn (M := 8192) (N := 4096) (V c main_v4) (fun n => V c main_v5 (ValueIdx.ix2 0 (n 0))) (fun n => V c main_v6 (ValueIdx.ix2 0 (n 0))) :=
  (dat3 V c).arrAt_eq_of_cover 3 _ (fun t _ => by
    show (cfg3.win 3).cut (grid3.coords t) ((dat3 V c).after 3 t) = _
    rw [after3_3, out3_3, View.canon_unit_zero off00_eq]
    simp only [View.ld_unit_zero (S := S8192x128) off00_eq, View.ld_unit_zero (S := S1x128) off00_eq]
    funext j
    obtain ⟨r, q, rfl⟩ : ∃ (r : Fin 8192) (q : Fin 128), j = ix2 r q := ⟨j 0, j 1, eq_ix2 j⟩
    show k3_pay1 (F := Ideal) _ _ _ (ix2 r q) = bnSgn (M := 8192) (N := 4096) (V c main_v4) (fun n => V c main_v5 (ix2 0 (n 0))) (fun n => V c main_v6 (ix2 0 (n 0)))
      (((cfg3.win 0).blk t).view.emb (ix2 r q))
    obtain ⟨n, hn⟩ : ∃ n : Fin 4096, t.val * 128 + q.val = n := ⟨((cfg3.win 3).blk t).view.emb (ix2 r q) 1, (emb3 3 t (ix2 r q) 1).symm⟩
    have ea (i : Fin 8192) : ((cfg3.win 0).blk t).view.emb (ix2 i q) = (ix2 i n : S8192x4096.Idx) :=
      Shape.idx_ext₂ (emb3 0 t _ 0) ((emb3 0 t _ 1).trans hn)
    have eb : ((cfg3.win 1).blk t).view.emb (ix2 0 q) = (ix2 0 n : S1x4096.Idx) :=
      Shape.idx_ext₂ (emb3 1 t _ 0) ((emb3 1 t _ 1).trans hn)
    rw [ea r, pay3_apply]
    exact bnSgn_congr_col _ _ _ _ _ _ q n
      (fun i => by rw [← ea i]; rfl) (by rw [← eb]; rfl) (by rw [← eb]; rfl) r) covered3_3

end Cert.KernelIdeal.Fr

end
-- ==== Proof.KI.BnVal5.lean ====
import proofs.«147723_j3221225472529_1_alg».proof.Proof.KI.Bn5
import proofs.«147723_j3221225472529_1_alg».proof.Proof.KI.BnAlg

noncomputable section

namespace Cert.KernelIdeal.Fr

open Idealize.ShloMosaic Idealize.ShloMosaic.TcCoe
open Cert.KernelIdeal Cert.KernelIdeal.Gen
open Idealize.ShloMosaic.ValueIdx
open Cert.Layers

/-- What the body stores, read at an index of its block: the layer's function of the block, column by column. -/
theorem pay5_apply (x : Vec Ideal S8192x128 .f32) (y z : Vec Ideal S1x128 .f32) (r : Fin 8192) (q : Fin 128) :
    k5_pay1 x y z (ix2 r q) = bnSgn (M := 8192) (N := 128) x (fun n => y (ix2 0 (n 0))) (fun n => z (ix2 0 (n 0))) (ix2 r q) := by
  unfold k5_pay1
  simp only [shapeCast_self]
  rw [colmean_row, colmean_row]
  simp only [colvar_row, select_apply, cmpf_apply, broadcast_apply, addf_apply, mulf_apply, subf_apply, broadcastTo_1b_ab_apply, rsqrt_apply]
  rfl

/-- At grid point t every operand's block is block (0, t) of its array. -/
theorem idx5 : ∀ (t : Fin grid5.N) (w : Fin 4) (a : Fin (win5 w).shape.rank),
    (win5 w).index t a = if a.val = 0 then 0 else t.val := by decide +kernel

/-- So an entry of an operand's block at point t keeps its row and lies t blocks further along the columns. -/
theorem emb5 (w : Fin cfg5.W) (t : Fin cfg5.N) (y : ((cfg5.win w).xblock (cfg5.grid.coords t)).Idx) (a : Fin (cfg5.win w).shape.rank) :
    (((cfg5.win w).rect t).emb y a : ℕ) = if a.val = 0 then (y a : ℕ) else t.val * (cfg5.win w).size a + y a := by
  have h : (cfg5.win w).index t a = _ := idx5 t w a
  rw [(cfg5.win w).rect_emb_val t y a, h]
  split <;> simp

variable (V : (c : Dev nD) → (b : Ref sig .tc) → Buf (Elt Ideal) ((c : Thread nD τ).loc b))

/-- Column n of the output array lies in block n / 128. -/
theorem covered5_3 (i : S8192x4096.Idx) : ∃ t : Fin cfg5.N, (cfg5.win 3).flush t = true ∧ i ∈ ((cfg5.win 3).blk t).view.set := by
  have hi : (i 1).val < 4096 := (i 1).isLt
  have hT : (i 1).val / 128 < cfg5.N := by rw [show cfg5.N = _ from N_5]; omega
  have e : ((cfg5.win 3).blk ⟨_, hT⟩).view.emb (ix2 (i 0) ⟨(i 1).val % 128, Nat.mod_lt _ (by decide)⟩) = i :=
    Shape.idx_ext₂ (emb5 3 _ _ 0) ((emb5 3 _ _ 1).trans (Nat.div_add_mod' _ _))
  exact ⟨_, flush5_3 _, e ▸ View.emb_mem_set _ _⟩

/-- The layer's function reads one column at a time, so what point t stores is block t of that function of the whole
    arrays; the blocks cover the output array. -/
theorem final5 (c : Dev nD) :
    (dat5 (F := Ideal) V c).arrAt 3 cfg5.N
      = Cert.Layers.bnSgn (M := 8192) (N := 4096) (V c main_v8) (fun n => V c main_v9 (ValueIdx.ix2 0 (n 0))) (fun n => V c main_v10 (ValueIdx.ix2 0 (n 0))) :=
  (dat5 V c).arrAt_eq_of_cover 3 _ (fun t _ => by
    show (cfg5.win 3).cut (grid5.coords t) ((dat5 V c).after 3 t) = _
    rw [after5_3, out5_3, View.canon_unit_zero off00_eq]
    simp only [View.ld_unit_zero (S := S8192x128) off00_eq, View.ld_unit_zero (S := S1x128) off00_eq]
    funext j
    obtain ⟨r, q, rfl⟩ : ∃ (r : Fin 8192) (q : Fin 128), j = ix2 r q := ⟨j 0, j 1, eq_ix2 j⟩
    show k5_pay1 (F := Ideal) _ _ _ (ix2 r q) = bnSgn (M := 8192) (N := 4096) (V c main_v8) (fun n => V c main_v9 (ix2 0 (n 0))) (fun n => V c main_v10 (ix2 0 (n 0)))
      (((cfg5.win 0).blk t).view.emb (ix2 r q))
    obtain ⟨n, hn⟩ : ∃ n : Fin 4096, t.val * 128 + q.val = n := ⟨((cfg5.win 3).blk t).view.emb (ix2 r q) 1, (emb5 3 t (ix2 r q) 1).symm⟩
    have ea (i : Fin 8192) : ((cfg5.win 0).blk t).view.emb (ix2 i q) = (ix2 i n : S8192x4096.Idx) :=
      Shape.idx_ext₂ (emb5 0 t _ 0) ((emb5 0 t _ 1).trans hn)
    have eb : ((cfg5.win 1).blk t).view.emb (ix2 0 q) = (ix2 0 n : S1x4096.Idx) :=
      Shape.idx_ext₂ (emb5 1 t _ 0) ((emb5 1 t _ 1).trans hn)
    rw [ea r, pay5_apply]
    exact bnSgn_congr_col _ _ _ _ _ _ q n
      (fun i => by rw [← ea i]; rfl) (by rw [← eb]; rfl) (by rw [← eb]; rfl) r) covered5_3

end Cert.KernelIdeal.Fr

end
-- ==== Proof.KI.BnVal7.lean ====
import proofs.«147723_j3221225472529_1_alg».proof.Proof.KI.Bn7
import proofs.«147723_j3221225472529_1_alg».proof.Proof.KI.BnAlg

noncomputable section

namespace Cert.KernelIdeal.Fr

open Idealize.ShloMosaic Idealize.ShloMosaic.TcCoe
open Cert.KernelIdeal Cert.KernelIdeal.Gen
open Idealize.ShloMosaic.ValueIdx
open Cert.Layers

/-- What the body stores, read at an index of its block: the layer's function of the block, column by column. -/
theorem pay7_apply (x : Vec Ideal S8192x10 .f32) (y z : Vec Ideal S1x10 .f32) (r : Fin 8192) (q : Fin 10) :
    k7_pay1 x y z (ix2 r q) = bn (M := 8192) (N := 10) x (fun n => y (ix2 0 (n 0))) (fun n => z (ix2 0 (n 0))) (ix2 r q) := by
  unfold k7_pay1
  simp only [shapeCast_self]
  rw [colmean_row, colmean_row]
  simp only [colvar_row, select_apply, cmpf_apply, broadcast_apply, addf_apply, mulf_apply, subf_apply, broadcastTo_1b_ab_apply, rsqrt_apply]
  rfl

/-- At grid point t every operand's block is block (0, t) of its array. -/
theorem idx7 : ∀ (t : Fin grid7.N) (w : Fin 4) (a : Fin (win7 w).shape.rank),
    (win7 w).index t a = if a.val = 0 then 0 else t.val := by decide +kernel

/-- So an entry of an operand's block at point t keeps its row and lies t blocks further along the columns. -/
theorem emb7 (w : Fin cfg7.W) (t : Fin cfg7.N) (y : ((cfg7.win w).xblock (cfg7.grid.coords t)).Idx) (a : Fin (cfg7.win w).shape.rank) :
    (((cfg7.win w).rect t).emb y a : ℕ) = if a.val = 0 then (y a : ℕ) else t.val * (cfg7.win w).size a + y a := by
  have h : (cfg7.win w).index t a = _ := idx7 t w a
  rw [(cfg7.win w).rect_emb_val t y a, h]
  split <;> simp

variable (V : (c : Dev nD) → (b : Ref sig .tc) → Buf (Elt Ideal) ((c : Thread nD τ).loc b))

/-- Column n of the output array lies in block n / 10. -/
theorem covered7_3 (i : S8192x10.Idx) : ∃ t : Fin cfg7.N, (cfg7.win 3).flush t = true ∧ i ∈ ((cfg7.win 3).blk t).view.set := by
  have hi : (i 1).val < 10 := (i 1).isLt
  have hT : (i 1).val / 10 < cfg7.N := by rw [show cfg7.N = _ from N_7]; omega
  have e : ((cfg7.win 3).blk ⟨_, hT⟩).view.emb (ix2 (i 0) ⟨(i 1).val % 10, Nat.mod_lt _ (by decide)⟩) = i :=
    Shape.idx_ext₂ (emb7 3 _ _ 0) ((emb7 3 _ _ 1).trans (Nat.div_add_mod' _ _))
  exact ⟨_, flush7_3 _, e ▸ View.emb_mem_set _ _⟩

/-- The layer's function reads one column at a time, so what point t stores is block t of that function of the whole
    arrays; the blocks cover the output array. -/
theorem final7 (c : Dev nD) :
    (dat7 (F := Ideal) V c).arrAt 3 cfg7.N
      = Cert.Layers.bn (M := 8192) (N := 10) (V c main_v12) (fun n => V c main_v13 (ValueIdx.ix2 0 (n 0))) (fun n => V c main_v14 (ValueIdx.ix2 0 (n 0))) :=
  (dat7 V c).arrAt_eq_of_cover 3 _ (fun t _ => by
    show (cfg7.win 3).cut (grid7.coords t) ((dat7 V c).after 3 t) = _
    rw [after7_3, out7_3, View.canon_unit_zero off00_eq]
    simp only [View.ld_unit_zero (S := S8192x10) off00_eq, View.ld_unit_zero (S := S1x10) off00_eq]
    funext j
    obtain ⟨r, q, rfl⟩ : ∃ (r : Fin 8192) (q : Fin 10), j = ix2 r q := ⟨j 0, j 1, eq_ix2 j⟩
    show k7_pay1 (F := Ideal) _ _ _ (ix2 r q) = bn (M := 8192) (N := 10) (V c main_v12) (fun n => V c main_v13 (ix2 0 (n 0))) (fun n => V c main_v14 (ix2 0 (n 0)))
      (((cfg7.win 0).blk t).view.emb (ix2 r q))
    obtain ⟨n, hn⟩ : ∃ n : Fin 10, t.val * 10 + q.val = n := ⟨((cfg7.win 3).blk t).view.emb (ix2 r q) 1, (emb7 3 t (ix2 r q) 1).symm⟩
    have ea (i : Fin 8192) : ((cfg7.win 0).blk t).view.emb (ix2 i q) = (ix2 i n : S8192x10.Idx) :=
      Shape.idx_ext₂ (emb7 0 t _ 0) ((emb7 0 t _ 1).trans hn)
    have eb : ((cfg7.win 1).blk t).view.emb (ix2 0 q) = (ix2 0 n : S1x10.Idx) :=
      Shape.idx_ext₂ (emb7 1 t _ 0) ((emb7 1 t _ 1).trans hn)
    rw [ea r, pay7_apply]
    exact bn_congr_col _ _ _ _ _ _ q n
      (fun i => by rw [← ea i]; rfl) (by rw [← eb]; rfl) (by rw [← eb]; rfl) r) covered7_3

end Cert.KernelIdeal.Fr

end
-- ==== Proof.KI.ValueKI.lean ====
import proofs.«147723_j3221225472529_1_alg».proof.Proof.KI.FoldArgs
import proofs.«147723_j3221225472529_1_alg».proof.Proof.KI.BnVal1
import proofs.«147723_j3221225472529_1_alg».proof.Proof.KI.BnVal3
import proofs.«147723_j3221225472529_1_alg».proof.Proof.KI.BnVal5
import proofs.«147723_j3221225472529_1_alg».proof.Proof.KI.BnVal7
import proofs.«147723_j3221225472529_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Fr

open Idealize.ShloMosaic Idealize.ShloMosaic.TcCoe Idealize.ShloMosaic.Tactic
open Idealize.ShloMosaic.Pipeline (Dat Cfg)
open Cert.KernelIdeal Cert.KernelIdeal.Gen
open Idealize.ShloMosaic.ValueIdx
open Cert.Layers

variable (m : (ℓ : Loc nD τ sig) → Buf (Elt Ideal) ℓ)

/-- An array of device `c` as the launch finds it. -/
abbrev argAt (c : Dev nD) (b : Ref sig .tc) : Buf (Elt Ideal) ((c : Thread nD τ).loc b) := m ((c : Thread nD τ).loc b)

/-- The four layers: each product, then its normalisation (the sign taken in all but the last). -/
def lin1 (c : Dev nD) : Mat 8192 4096 := mm (K := 784) (argAt m c main_arg0) (argAt m c main_arg1)
def act1 (c : Dev nD) : Mat 8192 4096 := bnSgn (lin1 m c) (argAt m c main_arg5) (argAt m c main_arg6)
def lin2 (c : Dev nD) : Mat 8192 4096 := mm (K := 4096) (act1 m c) (argAt m c main_arg2)
def act2 (c : Dev nD) : Mat 8192 4096 := bnSgn (lin2 m c) (argAt m c main_arg7) (argAt m c main_arg8)
def lin3 (c : Dev nD) : Mat 8192 4096 := mm (K := 4096) (act2 m c) (argAt m c main_arg3)
def act3 (c : Dev nD) : Mat 8192 4096 := bnSgn (lin3 m c) (argAt m c main_arg9) (argAt m c main_arg10)
def lin4 (c : Dev nD) : Mat 8192 10 := mm (K := 4096) (act3 m c) (argAt m c main_arg4)

theorem congr3 {α β γ δ : Sort*} (f : α → β → γ → δ) {a a' : α} {b b' : β} {d d' : γ} (ha : a = a') (hb : b = b') (hd : d = d') :
    f a b d = f a' b' d' := by
  subst ha hb hd; rfl

/-- The one row of a `[1, n]` array, as a vector. -/
abbrev rowOf {n : ℕ} (x : (⟨2, ![1, n]⟩ : Shape).Idx → EReal) : Vct n := fun i => x (ix2 0 (i 0))

/-- A vector cast to one row and read back along the row is the vector. -/
theorem row_after {n : ℕ} {x : (⟨2, ![1, n]⟩ : Shape).Idx → EReal} {y a : Vct n} (h : (⟨1, ![n]⟩ : Shape).ShapeCasts ⟨2, ![1, n]⟩)
    (e : x = shapeCast ⟨2, ![1, n]⟩ y h) (ey : y = a) : rowOf x = a := by
  subst e ey
  exact funext fun i => (shapeCast_a_1a_apply y h 0 (i 0)).trans (congrArg y (eq_ix1 i).symm)

theorem W2_v1 (c : Dev nD) : rowOf (n := 4096) (W2 m c (Proc.devRef .tc main_v1)) = argAt m c main_arg5 :=
  row_after shapeCasts_S4096_S1x4096 (by show StableHlo.after hostOps1 (W1 m c) _ = _; after_results; rfl) (W1_args m c main_arg5 (by decide))
theorem W2_v2 (c : Dev nD) : rowOf (n := 4096) (W2 m c (Proc.devRef .tc main_v2)) = argAt m c main_arg6 :=
  row_after shapeCasts_S4096_S1x4096 (by show StableHlo.after hostOps1 (W1 m c) _ = _; after_results; rfl) (W1_args m c main_arg6 (by decide))
theorem W5_v5 (c : Dev nD) : rowOf (n := 4096) (W5 m c (Proc.devRef .tc main_v5)) = argAt m c main_arg7 :=
  row_after shapeCasts_S4096_S1x4096 (by show StableHlo.after hostOps3 (W4 m c) _ = _; after_results; rfl) (W4_args m c main_arg7 (by decide))
theorem W5_v6 (c : Dev nD) : rowOf (n := 4096) (W5 m c (Proc.devRef .tc main_v6)) = argAt m c main_arg8 :=
  row_after shapeCasts_S4096_S1x4096 (by show StableHlo.after hostOps3 (W4 m c) _ = _; after_results; rfl) (W4_args m c main_arg8 (by decide))
theorem W8_v9 (c : Dev nD) : rowOf (n := 4096) (W8 m c (Proc.devRef .tc main_v9)) = argAt m c main_arg9 :=
  row_after shapeCasts_S4096_S1x4096 (by show StableHlo.after hostOps5 (W7 m c) _ = _; after_results; rfl) (W7_args m c main_arg9 (by decide))
theorem W8_v10 (c : Dev nD) : rowOf (n := 4096) (W8 m c (Proc.devRef .tc main_v10)) = argAt m c main_arg10 :=
  row_after shapeCasts_S4096_S1x4096 (by show StableHlo.after hostOps5 (W7 m c) _ = _; after_results; rfl) (W7_args m c main_arg10 (by decide))
theorem W11_v13 (c : Dev nD) : rowOf (n := 10) (W11 m c (Proc.devRef .tc main_v13)) = argAt m c main_arg11 :=
  row_after shapeCasts_S10_S1x10 (by show StableHlo.after hostOps7 (W10 m c) _ = _; after_results; rfl) (W10_args m c main_arg11 (by decide))
theorem W11_v14 (c : Dev nD) : rowOf (n := 10) (W11 m c (Proc.devRef .tc main_v14)) = argAt m c main_arg12 :=
  row_after shapeCasts_S10_S1x10 (by show StableHlo.after hostOps7 (W10 m c) _ = _; after_results; rfl) (W10_args m c main_arg12 (by decide))

variable
  (h0 : ∀ (V : (c : Dev nD) → (b : Ref sig .tc) → Buf (Elt Ideal) ((c : Thread nD τ).loc b)) (c : Dev nD), (dat0 (F := Ideal) V c).arrAt 2 cfg0.N = Cert.Layers.mm (M := 8192) (K := 784) (N := 4096) (V c main_arg0) (V c main_arg1))
  (h2 : ∀ (V : (c : Dev nD) → (b : Ref sig .tc) → Buf (Elt Ideal) ((c : Thread nD τ).loc b)) (c : Dev nD), (dat2 (F := Ideal) V c).arrAt 2 cfg2.N = Cert.Layers.mm (M := 8192) (K := 4096) (N := 4096) (V c main_v3) (V c main_arg2))
  (h4 : ∀ (V : (c : Dev nD) → (b : Ref sig .tc) → Buf (Elt Ideal) ((c : Thread nD τ).loc b)) (c : Dev nD), (dat4 (F := Ideal) V c).arrAt 2 cfg4.N = Cert.Layers.mm (M := 8192) (K := 4096) (N := 4096) (V c main_v7) (V c main_arg3))
  (h6 : ∀ (V : (c : Dev nD) → (b : Ref sig .tc) → Buf (Elt Ideal) ((c : Thread nD τ).loc b)) (c : Dev nD), (dat6 (F := Ideal) V c).arrAt 2 cfg6.N = Cert.Layers.mm (M := 8192) (K := 4096) (N := 10) (V c main_v11) (V c main_arg4))
include h0 h2 h4 h6

/-- After each layer's items its output array holds the layer's value. -/
theorem W3_v3 (c : Dev nD) : W3 m c (Proc.devRef .tc main_v3) = act1 m c :=
  (W3_arr m c 3).trans ((final1 (VR2 m) c).trans (congr3 bnSgn
    ((StableHlo.after_of_writes_sub hostOps1 _ hostOps1_writes (by decide)).trans ((W1_arr m c 2).trans (h0 (VR0 m) c)))
    (W2_v1 m c) (W2_v2 m c)))

theorem W6_v7 (c : Dev nD) : W6 m c (Proc.devRef .tc main_v7) = act2 m c :=
  (W6_arr m c 3).trans ((final3 (VR5 m) c).trans (congr3 bnSgn
    ((StableHlo.after_of_writes_sub hostOps3 _ hostOps3_writes (by decide)).trans
      ((W4_arr m c 2).trans ((h2 (VR3 m) c).trans (congrArg₂ mm (W3_v3 m h0 h2 h4 h6 c) (W3_args m c main_arg2 (by decide))))))
    (W5_v5 m c) (W5_v6 m c)))

theorem W9_v11 (c : Dev nD) : W9 m c (Proc.devRef .tc main_v11) = act3 m c :=
  (W9_arr m c 3).trans ((final5 (VR8 m) c).trans (congr3 bnSgn
    ((StableHlo.after_of_writes_sub hostOps5 _ hostOps5_writes (by decide)).trans
      ((W7_arr m c 2).trans ((h4 (VR6 m) c).trans (congrArg₂ mm (W6_v7 m h0 h2 h4 h6 c) (W6_args m c main_arg3 (by decide))))))
    (W8_v9 m c) (W8_v10 m c)))

/-- The result array holds the network on the thirteen arguments, given that each product's output array holds the product. -/
theorem kernel_value (c : Dev nD) :
    W12 m c (Proc.devRef .tc main_v15)
      = Cert.Layers.net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) :=
  (W12_arr m c 3).trans ((final7 (VR11 m) c).trans (congr3 bn
    ((StableHlo.after_of_writes_sub hostOps7 _ hostOps7_writes (by decide)).trans
      ((W10_arr m c 2).trans ((h6 (VR9 m) c).trans (congrArg₂ mm (W9_v11 m h0 h2 h4 h6 c) (W9_args m c main_arg4 (by decide))))))
    (W11_v13 m c) (W11_v14 m c)))

end Cert.KernelIdeal.Fr

end
-- ==== Proof.KI.MmAlg.lean ====
import proofs.«147723_j3221225472529_1_alg».proof.Proof.Layers
import Idealize.ShloMosaic.Lib.Pipeline.Value
import Idealize.ShloMosaic.Lib.ValueIdx

noncomputable section

namespace Cert.Layers

open Idealize.ShloMosaic Idealize.ShloMosaic.ValueIdx
open scoped BigOperators

/-- Position `kk` of block `b` among `J` consecutive blocks of length `n`. -/
def blkIdx {J n : ℕ} (b : Fin J) (kk : Fin n) : Fin (J * n) :=
  ⟨b.val * n + kk.val, Nat.lt_of_lt_of_le (Nat.add_lt_add_left kk.isLt _) (by rw [← Nat.succ_mul]; exact Nat.mul_le_mul_right n b.isLt)⟩

/-- A sum over `J * n` consecutive indices is the sum over the `J` blocks of each block's sum. -/
theorem sum_blocks {β : Type*} [AddCommMonoid β] (J n : ℕ) (f : Fin (J * n) → β) :
    ∑ k, f k = ∑ b : Fin J, ∑ kk : Fin n, f (blkIdx b kk) := by
  rw [← Equiv.sum_comp finProdFinEquiv f, Fintype.sum_prod_type]
  refine Finset.sum_congr rfl fun b _ => Finset.sum_congr rfl fun kk _ => congrArg f (Fin.ext ?_)
  show kk.val + n * b.val = b.val * n + kk.val
  rw [Nat.mul_comm, Nat.add_comm]

/-- Restarting with a term at every `J`-th point and adding a term elsewhere leaves, `j` points into a run, the sum of the run's first `j + 1` terms. -/
theorem run_sum {β : Type*} [AddCommMonoid β] {N : ℕ} (J : ℕ) (f T : (n : ℕ) → n < N → β)
    (h0 : ∀ n h, n % J = 0 → f n h = T n h)
    (hs : ∀ n (h : n + 1 < N), ¬(n + 1) % J = 0 → f (n + 1) h = f n (Nat.lt_of_succ_lt h) + T (n + 1) h)
    (p : ℕ) : ∀ (j : ℕ) (_ : j < J) (h : J * p + j < N),
      f (J * p + j) h = ∑ s : Fin (j + 1), T (J * p + s.val) (by have := s.isLt; omega)
  | 0, _, h => (h0 _ h (Nat.mul_mod_right J p)).trans (Fin.sum_univ_one (fun s : Fin 1 => T (J * p + s.val) (by have := s.isLt; omega))).symm
  | j + 1, hj, h => by
    refine (hs (J * p + j) h ?_).trans ?_
    · rw [Nat.add_assoc, Nat.mul_add_mod, Nat.mod_eq_of_lt hj]; exact Nat.succ_ne_zero j
    · rw [run_sum J f T h0 hs p j (Nat.lt_of_succ_lt hj) (Nat.lt_of_succ_lt h)]
      exact (Fin.sum_univ_castSucc (fun s : Fin (j + 1 + 1) => T (J * p + s.val) (by have := s.isLt; omega))).symm

/-- If point t = (i · NJ + j) · J + k adds block (i, k) of `X` times the signs of block (j, k) of `W`, restarting at k = 0, the last point of a run holds block (i, j) of the product. -/
theorem acc_mm {Npts M N bm bn : ℕ} (NJ J bk : ℕ)
    (acc : (n : ℕ) → n < Npts → Mat bm bn) (xb : Fin Npts → Mat bm bk) (wb : Fin Npts → Mat bn bk)
    (h0 : ∀ n h, n % J = 0 → acc n h = mm (xb ⟨n, h⟩) (wb ⟨n, h⟩))
    (hs : ∀ n (h : n + 1 < Npts), ¬(n + 1) % J = 0 →
      acc (n + 1) h = acc n (Nat.lt_of_succ_lt h) + mm (xb ⟨n + 1, h⟩) (wb ⟨n + 1, h⟩))
    (X : Mat M (J * bk)) (W : Mat N (J * bk))
    (hx : ∀ (t : Fin Npts) (r : Fin bm) (kk : Fin bk) (i : Fin M) (k : Fin (J * bk)),
      i.val = t.val / (NJ * J) * bm + r.val → k.val = t.val % J * bk + kk.val → xb t (ix2 r kk) = X (ix2 i k))
    (hw : ∀ (t : Fin Npts) (q : Fin bn) (kk : Fin bk) (j : Fin N) (k : Fin (J * bk)),
      j.val = t.val / J % NJ * bn + q.val → k.val = t.val % J * bk + kk.val → wb t (ix2 q kk) = W (ix2 j k))
    (t : Fin Npts) (hl : t.val % J = J - 1) (hJ : 0 < J) (r : Fin bm) (q : Fin bn) (i : Fin M) (j : Fin N)
    (hi : i.val = t.val / (NJ * J) * bm + r.val) (hj : j.val = t.val / J % NJ * bn + q.val) :
    acc t.val t.isLt (ix2 r q) = mm X W (ix2 i j) := by
  obtain ⟨J', rfl⟩ : ∃ J', J = J' + 1 := ⟨J - 1, by omega⟩
  have e : (J' + 1) * (t.val / (J' + 1)) + J' = t.val := by have := Nat.div_add_mod t.val (J' + 1); omega
  have h' : (J' + 1) * (t.val / (J' + 1)) + J' < Npts := by have := t.isLt; omega
  have hq : ∀ s, s < J' + 1 → ((J' + 1) * (t.val / (J' + 1)) + s) / (J' + 1) = t.val / (J' + 1)
      ∧ ((J' + 1) * (t.val / (J' + 1)) + s) % (J' + 1) = s := fun s hs =>
    ⟨by rw [Nat.mul_add_div (Nat.succ_pos J'), Nat.div_eq_of_lt hs, Nat.add_zero], by rw [Nat.mul_add_mod, Nat.mod_eq_of_lt hs]⟩
  have hd : ∀ x, x / (NJ * (J' + 1)) = x / (J' + 1) / NJ := fun x => by rw [Nat.mul_comm, Nat.div_div_eq_div_mul]
  have key : ∀ (u : ℕ) (hu : u < Npts), u = t.val → acc t.val t.isLt = acc u hu := fun u hu eu => by subst eu; rfl
  rw [key _ h' e, run_sum (J' + 1) acc (fun n h => mm (xb ⟨n, h⟩) (wb ⟨n, h⟩)) h0 hs (t.val / (J' + 1)) J' (Nat.lt_succ_self _) h',
    Finset.sum_apply]
  unfold mm
  refine Eq.trans (Finset.sum_congr rfl fun s _ => Finset.sum_congr rfl fun kk _ => ?_)
    (sum_blocks (J' + 1) bk fun k => X (ix2 i k) * sgn (W (ix2 j k))).symm
  obtain ⟨hq1, hq2⟩ := hq s.val s.isLt
  show xb ⟨(J' + 1) * (t.val / (J' + 1)) + s.val, _⟩ (ix2 r kk) * sgn (wb ⟨(J' + 1) * (t.val / (J' + 1)) + s.val, _⟩ (ix2 q kk))
    = X (ix2 i (blkIdx s kk)) * sgn (W (ix2 j (blkIdx s kk)))
  rw [hx ⟨_, _⟩ r kk i (blkIdx s kk)
      (by show i.val = ((J' + 1) * (t.val / (J' + 1)) + s.val) / (NJ * (J' + 1)) * bm + r.val; rw [hi, hd, hd, hq1])
      (by show s.val * bk + kk.val = ((J' + 1) * (t.val / (J' + 1)) + s.val) % (J' + 1) * bk + kk.val; rw [hq2]),
    hw ⟨_, _⟩ q kk j (blkIdx s kk)
      (by show j.val = ((J' + 1) * (t.val / (J' + 1)) + s.val) / (J' + 1) % NJ * bn + q.val; rw [hj, hq1])
      (by show s.val * bk + kk.val = ((J' + 1) * (t.val / (J' + 1)) + s.val) % (J' + 1) * bk + kk.val; rw [hq2])]

/-- The non-contracted coordinates of the operands' indices, for a product of two matrices along axis 1 of both. -/
theorem lhsIdx_nt0 {sl sr so : Shape} (D : DotDims sl sr so) (a : Fin sl.rank) (hb : D.lhsBatch = []) (hn : D.lhsNonContracting = [a])
    (j : so.Idx) (c : D.contr.Idx) : (D.lhsIdx j c a).val = (j ⟨0, by rw [D.rank_out, hb, hn]; show 0 < 0 + 1 + _; omega⟩).val := by
  unfold DotDims.lhsIdx
  rw [dif_neg (by rw [hb]; exact List.not_mem_nil), dif_pos (by rw [hn]; exact List.mem_singleton.mpr rfl)]
  simp only [Fin.val_cast]
  have key : ∀ (p q : ℕ) (hp : p < so.rank) (hq : q < so.rank), p = q → (j ⟨p, hp⟩).val = (j ⟨q, hq⟩).val :=
    fun p q hp hq h => by subst h; rfl
  exact key _ _ _ _ (by simp [hb, hn])

theorem rhsIdx_nt0 {sl sr so : Shape} (D : DotDims sl sr so) (a : Fin sr.rank) (hlb : D.lhsBatch = []) (hln : D.lhsNonContracting.length = 1)
    (hb : D.rhsBatch = []) (hn : D.rhsNonContracting = [a]) (j : so.Idx) (c : D.contr.Idx) :
    (D.rhsIdx j c a).val = (j ⟨1, by rw [D.rank_out, hlb, hln, hn]; show 1 < 0 + 1 + 1; omega⟩).val := by
  unfold DotDims.rhsIdx
  rw [dif_neg (by rw [hb]; exact List.not_mem_nil), dif_pos (by rw [hn]; exact List.mem_singleton.mpr rfl)]
  simp only [Fin.val_cast]
  have key : ∀ (p q : ℕ) (hp : p < so.rank) (hq : q < so.rank), p = q → (j ⟨p, hp⟩).val = (j ⟨q, hq⟩).val :=
    fun p q hp hq h => by subst h; rfl
  exact key _ _ _ _ (by simp [hlb, hln, hn])

/-- A product of two matrices along axis 1 of both, at entry (r, q): the sum over the contracted positions. -/
theorem dot_nt_apply {a k b : ℕ} {φ₁ φ₂ : FTy} (D : DotDims ⟨2, ![a, k]⟩ ⟨2, ![b, k]⟩ ⟨2, ![a, b]⟩) (hr : D.contr.rank = 1)
    (hs : D.contr.size ⟨0, by omega⟩ = k) (hlc : D.lhsContracting = [1]) (hrc : D.rhsContracting = [1])
    (hln : D.lhsNonContracting = [0]) (hrn : D.rhsNonContracting = [0]) (hlb : D.lhsBatch = []) (hrb : D.rhsBatch = [])
    (x : FVec Ideal ⟨2, ![a, k]⟩ φ₁) (w : FVec Ideal ⟨2, ![b, k]⟩ φ₂) (r : Fin a) (q : Fin b) :
    ∑ c : D.contr.Idx, x (D.lhsIdx (ix2 r q) c) * w (D.rhsIdx (ix2 r q) c) = ∑ kk : Fin k, x (ix2 r kk) * w (ix2 q kk) := by
  rw [← Equiv.sum_comp (contrEquiv1 D k hr hs).symm]
  refine Finset.sum_congr rfl fun kk _ => ?_
  have hk := contrEquiv1_symm_val D k hr hs kk
  rw [show D.lhsIdx (ix2 r q) ((contrEquiv1 D k hr hs).symm kk) = ix2 r kk from
      Shape.idx_ext₂ (lhsIdx_nt0 D 0 hlb hln _ _) ((D.lhsIdx_val_of_single hlc _ _).trans hk),
    show D.rhsIdx (ix2 r q) ((contrEquiv1 D k hr hs).symm kk) = ix2 q kk from
      Shape.idx_ext₂ (rhsIdx_nt0 D 0 hlb (by rw [hln]; rfl) hrb hrn _ _) ((D.rhsIdx_val_of_single hrc _ _).trans hk)]

end Cert.Layers

end
-- ==== Proof.KI.MmVal0.lean ====
import proofs.«147723_j3221225472529_1_alg».proof.Proof.KI.Mm0
import proofs.«147723_j3221225472529_1_alg».proof.Proof.KI.MmAlg
import Idealize.ShloMosaic.PureOps.Ideal.Laws

noncomputable section

namespace Cert.KernelIdeal.Fr

open Idealize.ShloMosaic Idealize.ShloMosaic.TcCoe
open Cert.KernelIdeal Cert.KernelIdeal.Gen Cert.Layers
open Idealize.ShloMosaic.ValueIdx

/-- A step adds the product of the activations with the signs of the weights: narrowing is the identity on the extended reals. -/
theorem step0 (x : Vec Ideal S1024x784 .f32) (w : Vec Ideal S512x784 .f32) (a : Vec Ideal S1024x512 .f32) :
    k0_pay2 x w a = fun y => a y + mm x w y := by
  funext y
  obtain ⟨r, q, rfl⟩ : ∃ (r : Fin 1024) (q : Fin 512), y = ix2 r q := ⟨y 0, y 1, eq_ix2 y⟩
  unfold k0_pay2
  simp only [shapeCast_self]
  exact congrArg (a (ix2 r q) + ·) ((Ideal.matmul_constant_zero_apply dot_S1024x784_S512x784_S1024x512_1_1_0_0_n_n none _ _ (ix2 r q)).trans
    (dot_nt_apply dot_S1024x784_S512x784_S1024x512_1_1_0_0_n_n rfl rfl rfl rfl rfl rfl rfl rfl _ _ r q))

/-- A reduction starts from zero. -/
theorem start0 (y : S1024x512.Idx) : (k0_pay1 (F := Ideal)) y = 0 := by
  unfold k0_pay1
  simp only [shapeCast_self]
  exact Ideal.ofBits_zero_f32

variable (V : (c : Dev nD) → (b : Ref sig .tc) → Buf (Elt Ideal) ((c : Thread nD τ).loc b))

/-- Point t = (i · 8 + j) · 1 + k has row block i, column block j and contraction block k. -/
theorem idx_facts0 : ∀ t : Fin cfg0.N, win0_0.index t (0 : Fin 2) = t.val / 8
    ∧ win0_0.index t (1 : Fin 2) = t.val % 1
    ∧ win0_1.index t (0 : Fin 2) = t.val / 1 % 8
    ∧ win0_1.index t (1 : Fin 2) = t.val % 1
    ∧ win0_2.index t (0 : Fin 2) = t.val / 8
    ∧ win0_2.index t (1 : Fin 2) = t.val / 1 % 8 :=
  (by decide +kernel : ∀ t : Fin grid0.N, _)

/-- After the last step of a reduction the accumulator is its block of the whole product. -/
theorem flushed0_eq (c : Dev nD) (t : Fin cfg0.N) (hf : (cfg0.win 2).flush t = true) :
    (dat0 V c).flushed 2 t
      = ((cfg0.win 2).blk t).view.read (Elt Ideal) (mm (M := 8192) (K := 784) (N := 4096) (V c main_arg0) (V c main_arg1)) := by
  have hl : t.val % 1 = 0 := Nat.mod_one _
  have htl : t.val < 64 := lt_of_lt_of_eq t.isLt N_0
  obtain ⟨-, -, -, -, ei, ej⟩ := idx_facts0 t
  show (cfg0.win 2).cut (grid0.coords t) ((dat0 V c).after 2 t) = _
  rw [after0_2]
  funext y
  obtain ⟨r, q, rfl⟩ : ∃ (r : Fin 1024) (q : Fin 512), y = ix2 r q := ⟨y 0, y 1, eq_ix2 y⟩
  have hr := r.isLt
  have hq := q.isLt
  rw [View.read_apply, show ((cfg0.win 2).blk t).view.emb (ix2 r q)
      = ix2 (⟨t.val / 8 * 1024 + r.val, by omega⟩ : Fin 8192) (⟨t.val / 1 % 8 * 512 + q.val, by omega⟩ : Fin 4096) from
    Shape.idx_ext₂ (by show win0_2.index t (0 : Fin 2) * 1024 + 1 * r.val = t.val / 8 * 1024 + r.val; omega)
      (by show win0_2.index t (1 : Fin 2) * 512 + 1 * q.val = t.val / 1 % 8 * 512 + q.val; omega)]
  refine acc_mm 8 1 784 (accAt0 V c) (fun u => iblk0 V c 0 u) (fun u => iblk0 V c 1 u) (fun n h hn => ?_) (fun n h hn => ?_)
    (V c main_arg0) (V c main_arg1) (fun u r kk i k hi hk => ?_) (fun u q kk j k hj hk => ?_) t hl (by decide) r q _ _ rfl rfl
  · have hf := (first_iff0 ⟨n, h⟩).mpr hn
    cases n <;> (unfold accAt0 accStep0; rw [if_pos hf, step0]; exact funext fun y => (congrArg (· + _) (start0 y)).trans (zero_add _))
  · show accStep0 _ _ _ (accAt0 V c n _) = _
    unfold accStep0
    rw [if_neg fun hh => hn ((first_iff0 ⟨n + 1, h⟩).mp hh), step0]
    rfl
  · obtain ⟨ei, ek, -⟩ := idx_facts0 u
    show ((cfg0.win 0).blk u).view.read (Elt Ideal) (V c main_arg0) (ix2 r kk) = _
    rw [View.read_apply]
    exact congrArg (V c main_arg0) (Shape.idx_ext₂ (by show win0_0.index u (0 : Fin 2) * 1024 + 1 * r.val = i.val; omega)
      (by show win0_0.index u (1 : Fin 2) * 784 + 1 * kk.val = k.val; omega))
  · obtain ⟨-, -, ej, ek, -⟩ := idx_facts0 u
    show ((cfg0.win 1).blk u).view.read (Elt Ideal) (V c main_arg1) (ix2 q kk) = _
    rw [View.read_apply]
    exact congrArg (V c main_arg1) (Shape.idx_ext₂ (by show win0_1.index u (0 : Fin 2) * 512 + 1 * q.val = j.val; omega)
      (by show win0_1.index u (1 : Fin 2) * 784 + 1 * kk.val = k.val; omega))

/-- Entry (row, col) lies in the output block (row / 1024, col / 512), at the last point of its reduction. -/
theorem cover0 (i : S8192x4096.Idx) :
    ∃ t : Fin cfg0.N, (cfg0.win 2).flush t = true ∧ i ∈ ((cfg0.win 2).blk t).view.set := by
  have hi : (i 0).val < 8192 := idx2_lt0 i
  have hj : (i 1).val < 4096 := idx2_lt1 i
  obtain ⟨t, ht⟩ : ∃ t : Fin cfg0.N, t.val = ((i 0).val / 1024 * 8 + (i 1).val / 512) * 1 + 0 :=
    ⟨⟨_, lt_of_lt_of_eq (by omega) N_0.symm⟩, rfl⟩
  obtain ⟨-, -, -, -, ei, ej⟩ := idx_facts0 t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The output array ends as the whole binarized product of the arrays the region was entered with. -/
theorem final0 (V : (c : Dev nD) → (b : Ref sig .tc) → Buf (Elt Ideal) ((c : Thread nD τ).loc b)) (c : Dev nD) :
    (dat0 (F := Ideal) V c).arrAt 2 cfg0.N
      = Cert.Layers.mm (M := 8192) (K := 784) (N := 4096) (V c main_arg0) (V c main_arg1) :=
  (dat0 V c).arrAt_eq_of_cover 2 _ (fun t hf => flushed0_eq V c t hf) cover0

end Cert.KernelIdeal.Fr

end
-- ==== Proof.KI.MmVal2.lean ====
import proofs.«147723_j3221225472529_1_alg».proof.Proof.KI.Mm2
import proofs.«147723_j3221225472529_1_alg».proof.Proof.KI.MmAlg
import Idealize.ShloMosaic.PureOps.Ideal.Laws

noncomputable section

namespace Cert.KernelIdeal.Fr

open Idealize.ShloMosaic Idealize.ShloMosaic.TcCoe
open Cert.KernelIdeal Cert.KernelIdeal.Gen Cert.Layers
open Idealize.ShloMosaic.ValueIdx

/-- A step adds the product of the activations with the signs of the weights: narrowing is the identity on the extended reals. -/
theorem step2 (x : Vec Ideal S1024x1024 .f32) (w : Vec Ideal S512x1024 .f32) (a : Vec Ideal S1024x512 .f32) :
    k2_pay2 x w a = fun y => a y + mm x w y := by
  funext y
  obtain ⟨r, q, rfl⟩ : ∃ (r : Fin 1024) (q : Fin 512), y = ix2 r q := ⟨y 0, y 1, eq_ix2 y⟩
  unfold k2_pay2
  simp only [shapeCast_self]
  exact congrArg (a (ix2 r q) + ·) ((Ideal.matmul_constant_zero_apply dot_S1024x1024_S512x1024_S1024x512_1_1_0_0_n_n none _ _ (ix2 r q)).trans
    (dot_nt_apply dot_S1024x1024_S512x1024_S1024x512_1_1_0_0_n_n rfl rfl rfl rfl rfl rfl rfl rfl _ _ r q))

/-- A reduction starts from zero. -/
theorem start2 (y : S1024x512.Idx) : (k2_pay1 (F := Ideal)) y = 0 := by
  unfold k2_pay1
  simp only [shapeCast_self]
  exact Ideal.ofBits_zero_f32

variable (V : (c : Dev nD) → (b : Ref sig .tc) → Buf (Elt Ideal) ((c : Thread nD τ).loc b))

/-- Point t = (i · 8 + j) · 4 + k has row block i, column block j and contraction block k. -/
theorem idx_facts2 : ∀ t : Fin cfg2.N, win2_0.index t (0 : Fin 2) = t.val / 32
    ∧ win2_0.index t (1 : Fin 2) = t.val % 4
    ∧ win2_1.index t (0 : Fin 2) = t.val / 4 % 8
    ∧ win2_1.index t (1 : Fin 2) = t.val % 4
    ∧ win2_2.index t (0 : Fin 2) = t.val / 32
    ∧ win2_2.index t (1 : Fin 2) = t.val / 4 % 8 :=
  (by decide +kernel : ∀ t : Fin grid2.N, _)

/-- After the last step of a reduction the accumulator is its block of the whole product. -/
theorem flushed2_eq (c : Dev nD) (t : Fin cfg2.N) (hf : (cfg2.win 2).flush t = true) :
    (dat2 V c).flushed 2 t
      = ((cfg2.win 2).blk t).view.read (Elt Ideal) (mm (M := 8192) (K := 4096) (N := 4096) (V c main_v3) (V c main_arg2)) := by
  have hl : t.val % 4 = 3 := (flush2_2 t).mp hf
  have htl : t.val < 256 := lt_of_lt_of_eq t.isLt N_2
  obtain ⟨-, -, -, -, ei, ej⟩ := idx_facts2 t
  show (cfg2.win 2).cut (grid2.coords t) ((dat2 V c).after 2 t) = _
  rw [after2_2]
  funext y
  obtain ⟨r, q, rfl⟩ : ∃ (r : Fin 1024) (q : Fin 512), y = ix2 r q := ⟨y 0, y 1, eq_ix2 y⟩
  have hr := r.isLt
  have hq := q.isLt
  rw [View.read_apply, show ((cfg2.win 2).blk t).view.emb (ix2 r q)
      = ix2 (⟨t.val / 32 * 1024 + r.val, by omega⟩ : Fin 8192) (⟨t.val / 4 % 8 * 512 + q.val, by omega⟩ : Fin 4096) from
    Shape.idx_ext₂ (by show win2_2.index t (0 : Fin 2) * 1024 + 1 * r.val = t.val / 32 * 1024 + r.val; omega)
      (by show win2_2.index t (1 : Fin 2) * 512 + 1 * q.val = t.val / 4 % 8 * 512 + q.val; omega)]
  refine acc_mm 8 4 1024 (accAt2 V c) (fun u => iblk2 V c 0 u) (fun u => iblk2 V c 1 u) (fun n h hn => ?_) (fun n h hn => ?_)
    (V c main_v3) (V c main_arg2) (fun u r kk i k hi hk => ?_) (fun u q kk j k hj hk => ?_) t hl (by decide) r q _ _ rfl rfl
  · have hf := (first_iff2 ⟨n, h⟩).mpr hn
    cases n <;> (unfold accAt2 accStep2; rw [if_pos hf, step2]; exact funext fun y => (congrArg (· + _) (start2 y)).trans (zero_add _))
  · show accStep2 _ _ _ (accAt2 V c n _) = _
    unfold accStep2
    rw [if_neg fun hh => hn ((first_iff2 ⟨n + 1, h⟩).mp hh), step2]
    rfl
  · obtain ⟨ei, ek, -⟩ := idx_facts2 u
    show ((cfg2.win 0).blk u).view.read (Elt Ideal) (V c main_v3) (ix2 r kk) = _
    rw [View.read_apply]
    exact congrArg (V c main_v3) (Shape.idx_ext₂ (by show win2_0.index u (0 : Fin 2) * 1024 + 1 * r.val = i.val; omega)
      (by show win2_0.index u (1 : Fin 2) * 1024 + 1 * kk.val = k.val; omega))
  · obtain ⟨-, -, ej, ek, -⟩ := idx_facts2 u
    show ((cfg2.win 1).blk u).view.read (Elt Ideal) (V c main_arg2) (ix2 q kk) = _
    rw [View.read_apply]
    exact congrArg (V c main_arg2) (Shape.idx_ext₂ (by show win2_1.index u (0 : Fin 2) * 512 + 1 * q.val = j.val; omega)
      (by show win2_1.index u (1 : Fin 2) * 1024 + 1 * kk.val = k.val; omega))

/-- Entry (row, col) lies in the output block (row / 1024, col / 512), at the last point of its reduction. -/
theorem cover2 (i : S8192x4096.Idx) :
    ∃ t : Fin cfg2.N, (cfg2.win 2).flush t = true ∧ i ∈ ((cfg2.win 2).blk t).view.set := by
  have hi : (i 0).val < 8192 := idx2_lt0 i
  have hj : (i 1).val < 4096 := idx2_lt1 i
  obtain ⟨t, ht⟩ : ∃ t : Fin cfg2.N, t.val = ((i 0).val / 1024 * 8 + (i 1).val / 512) * 4 + 3 :=
    ⟨⟨_, lt_of_lt_of_eq (by omega) N_2.symm⟩, rfl⟩
  obtain ⟨-, -, -, -, ei, ej⟩ := idx_facts2 t
  refine ⟨t, (flush2_2 t).mpr (by omega), ?_⟩
  show i ∈ ((View.whole main_v4).slice (win2_2.rect t)).set
  rw [View.set_slice_whole, Rect.mem_set_unit]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

/-- The output array ends as the whole binarized product of the arrays the region was entered with. -/
theorem final2 (V : (c : Dev nD) → (b : Ref sig .tc) → Buf (Elt Ideal) ((c : Thread nD τ).loc b)) (c : Dev nD) :
    (dat2 (F := Ideal) V c).arrAt 2 cfg2.N
      = Cert.Layers.mm (M := 8192) (K := 4096) (N := 4096) (V c main_v3) (V c main_arg2) :=
  (dat2 V c).arrAt_eq_of_cover 2 _ (fun t hf => flushed2_eq V c t hf) cover2

end Cert.KernelIdeal.Fr

end
-- ==== Proof.KI.MmVal4.lean ====
import proofs.«147723_j3221225472529_1_alg».proof.Proof.KI.Mm4
import proofs.«147723_j3221225472529_1_alg».proof.Proof.KI.MmAlg
import Idealize.ShloMosaic.PureOps.Ideal.Laws

noncomputable section

namespace Cert.KernelIdeal.Fr

open Idealize.ShloMosaic Idealize.ShloMosaic.TcCoe
open Cert.KernelIdeal Cert.KernelIdeal.Gen Cert.Layers
open Idealize.ShloMosaic.ValueIdx

/-- A step adds the product of the activations with the signs of the weights: narrowing is the identity on the extended reals. -/
theorem step4 (x : Vec Ideal S1024x1024 .f32) (w : Vec Ideal S512x1024 .f32) (a : Vec Ideal S1024x512 .f32) :
    k4_pay2 x w a = fun y => a y + mm x w y := by
  funext y
  obtain ⟨r, q, rfl⟩ : ∃ (r : Fin 1024) (q : Fin 512), y = ix2 r q := ⟨y 0, y 1, eq_ix2 y⟩
  unfold k4_pay2
  simp only [shapeCast_self]
  exact congrArg (a (ix2 r q) + ·) ((Ideal.matmul_constant_zero_apply dot_S1024x1024_S512x1024_S1024x512_1_1_0_0_n_n none _ _ (ix2 r q)).trans
    (dot_nt_apply dot_S1024x1024_S512x1024_S1024x512_1_1_0_0_n_n rfl rfl rfl rfl rfl rfl rfl rfl _ _ r q))

/-- A reduction starts from zero. -/
theorem start4 (y : S1024x512.Idx) : (k4_pay1 (F := Ideal)) y = 0 := by
  unfold k4_pay1
  simp only [shapeCast_self]
  exact Ideal.ofBits_zero_f32

variable (V : (c : Dev nD) → (b : Ref sig .tc) → Buf (Elt Ideal) ((c : Thread nD τ).loc b))

/-- Point t = (i · 8 + j) · 4 + k has row block i, column block j and contraction block k. -/
theorem idx_facts4 : ∀ t : Fin cfg4.N, win4_0.index t (0 : Fin 2) = t.val / 32
    ∧ win4_0.index t (1 : Fin 2) = t.val % 4
    ∧ win4_1.index t (0 : Fin 2) = t.val / 4 % 8
    ∧ win4_1.index t (1 : Fin 2) = t.val % 4
    ∧ win4_2.index t (0 : Fin 2) = t.val / 32
    ∧ win4_2.index t (1 : Fin 2) = t.val / 4 % 8 :=
  (by decide +kernel : ∀ t : Fin grid4.N, _)

/-- After the last step of a reduction the accumulator is its block of the whole product. -/
theorem flushed4_eq (c : Dev nD) (t : Fin cfg4.N) (hf : (cfg4.win 2).flush t = true) :
    (dat4 V c).flushed 2 t
      = ((cfg4.win 2).blk t).view.read (Elt Ideal) (mm (M := 8192) (K := 4096) (N := 4096) (V c main_v7) (V c main_arg3)) := by
  have hl : t.val % 4 = 3 := (flush4_2 t).mp hf
  have htl : t.val < 256 := lt_of_lt_of_eq t.isLt N_4
  obtain ⟨-, -, -, -, ei, ej⟩ := idx_facts4 t
  show (cfg4.win 2).cut (grid4.coords t) ((dat4 V c).after 2 t) = _
  rw [after4_2]
  funext y
  obtain ⟨r, q, rfl⟩ : ∃ (r : Fin 1024) (q : Fin 512), y = ix2 r q := ⟨y 0, y 1, eq_ix2 y⟩
  have hr := r.isLt
  have hq := q.isLt
  rw [View.read_apply, show ((cfg4.win 2).blk t).view.emb (ix2 r q)
      = ix2 (⟨t.val / 32 * 1024 + r.val, by omega⟩ : Fin 8192) (⟨t.val / 4 % 8 * 512 + q.val, by omega⟩ : Fin 4096) from
    Shape.idx_ext₂ (by show win4_2.index t (0 : Fin 2) * 1024 + 1 * r.val = t.val / 32 * 1024 + r.val; omega)
      (by show win4_2.index t (1 : Fin 2) * 512 + 1 * q.val = t.val / 4 % 8 * 512 + q.val; omega)]
  refine acc_mm 8 4 1024 (accAt4 V c) (fun u => iblk4 V c 0 u) (fun u => iblk4 V c 1 u) (fun n h hn => ?_) (fun n h hn => ?_)
    (V c main_v7) (V c main_arg3) (fun u r kk i k hi hk => ?_) (fun u q kk j k hj hk => ?_) t hl (by decide) r q _ _ rfl rfl
  · have hf := (first_iff4 ⟨n, h⟩).mpr hn
    cases n <;> (unfold accAt4 accStep4; rw [if_pos hf, step4]; exact funext fun y => (congrArg (· + _) (start4 y)).trans (zero_add _))
  · show accStep4 _ _ _ (accAt4 V c n _) = _
    unfold accStep4
    rw [if_neg fun hh => hn ((first_iff4 ⟨n + 1, h⟩).mp hh), step4]
    rfl
  · obtain ⟨ei, ek, -⟩ := idx_facts4 u
    show ((cfg4.win 0).blk u).view.read (Elt Ideal) (V c main_v7) (ix2 r kk) = _
    rw [View.read_apply]
    exact congrArg (V c main_v7) (Shape.idx_ext₂ (by show win4_0.index u (0 : Fin 2) * 1024 + 1 * r.val = i.val; omega)
      (by show win4_0.index u (1 : Fin 2) * 1024 + 1 * kk.val = k.val; omega))
  · obtain ⟨-, -, ej, ek, -⟩ := idx_facts4 u
    show ((cfg4.win 1).blk u).view.read (Elt Ideal) (V c main_arg3) (ix2 q kk) = _
    rw [View.read_apply]
    exact congrArg (V c main_arg3) (Shape.idx_ext₂ (by show win4_1.index u (0 : Fin 2) * 512 + 1 * q.val = j.val; omega)
      (by show win4_1.index u (1 : Fin 2) * 1024 + 1 * kk.val = k.val; omega))

/-- Entry (row, col) lies in the output block (row / 1024, col / 512), at the last point of its reduction. -/
theorem cover4 (i : S8192x4096.Idx) :
    ∃ t : Fin cfg4.N, (cfg4.win 2).flush t = true ∧ i ∈ ((cfg4.win 2).blk t).view.set := by
  have hi : (i 0).val < 8192 := idx2_lt0 i
  have hj : (i 1).val < 4096 := idx2_lt1 i
  obtain ⟨t, ht⟩ : ∃ t : Fin cfg4.N, t.val = ((i 0).val / 1024 * 8 + (i 1).val / 512) * 4 + 3 :=
    ⟨⟨_, lt_of_lt_of_eq (by omega) N_4.symm⟩, rfl⟩
  obtain ⟨-, -, -, -, ei, ej⟩ := idx_facts4 t
  refine ⟨t, (flush4_2 t).mpr (by omega), ?_⟩
  show i ∈ ((View.whole main_v8).slice (win4_2.rect t)).set
  rw [View.set_slice_whole, Rect.mem_set_unit]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 512 ≤ (i 1).val ∧ (i 1).val < win4_2.index t (1 : Fin 2) * 512 + 512; omega

/-- The output array ends as the whole binarized product of the arrays the region was entered with. -/
theorem final4 (V : (c : Dev nD) → (b : Ref sig .tc) → Buf (Elt Ideal) ((c : Thread nD τ).loc b)) (c : Dev nD) :
    (dat4 (F := Ideal) V c).arrAt 2 cfg4.N
      = Cert.Layers.mm (M := 8192) (K := 4096) (N := 4096) (V c main_v7) (V c main_arg3) :=
  (dat4 V c).arrAt_eq_of_cover 2 _ (fun t hf => flushed4_eq V c t hf) cover4

end Cert.KernelIdeal.Fr

end
-- ==== Proof.KI.MmVal6.lean ====
import proofs.«147723_j3221225472529_1_alg».proof.Proof.KI.Mm6
import proofs.«147723_j3221225472529_1_alg».proof.Proof.KI.MmAlg
import Idealize.ShloMosaic.PureOps.Ideal.Laws

noncomputable section

namespace Cert.KernelIdeal.Fr

open Idealize.ShloMosaic Idealize.ShloMosaic.TcCoe
open Cert.KernelIdeal Cert.KernelIdeal.Gen Cert.Layers
open Idealize.ShloMosaic.ValueIdx

/-- A step adds the product of the activations with the signs of the weights: narrowing is the identity on the extended reals. -/
theorem step6 (x : Vec Ideal S1024x1024 .f32) (w : Vec Ideal S10x1024 .f32) (a : Vec Ideal S1024x10 .f32) :
    k6_pay2 x w a = fun y => a y + mm x w y := by
  funext y
  obtain ⟨r, q, rfl⟩ : ∃ (r : Fin 1024) (q : Fin 10), y = ix2 r q := ⟨y 0, y 1, eq_ix2 y⟩
  unfold k6_pay2
  simp only [shapeCast_self]
  exact congrArg (a (ix2 r q) + ·) ((Ideal.matmul_constant_zero_apply dot_S1024x1024_S10x1024_S1024x10_1_1_0_0_n_n none _ _ (ix2 r q)).trans
    (dot_nt_apply dot_S1024x1024_S10x1024_S1024x10_1_1_0_0_n_n rfl rfl rfl rfl rfl rfl rfl rfl _ _ r q))

/-- A reduction starts from zero. -/
theorem start6 (y : S1024x10.Idx) : (k6_pay1 (F := Ideal)) y = 0 := by
  unfold k6_pay1
  simp only [shapeCast_self]
  exact Ideal.ofBits_zero_f32

variable (V : (c : Dev nD) → (b : Ref sig .tc) → Buf (Elt Ideal) ((c : Thread nD τ).loc b))

/-- Point t = (i · 1 + j) · 4 + k has row block i, column block j and contraction block k. -/
theorem idx_facts6 : ∀ t : Fin cfg6.N, win6_0.index t (0 : Fin 2) = t.val / 4
    ∧ win6_0.index t (1 : Fin 2) = t.val % 4
    ∧ win6_1.index t (0 : Fin 2) = t.val / 4 % 1
    ∧ win6_1.index t (1 : Fin 2) = t.val % 4
    ∧ win6_2.index t (0 : Fin 2) = t.val / 4
    ∧ win6_2.index t (1 : Fin 2) = t.val / 4 % 1 :=
  (by decide +kernel : ∀ t : Fin grid6.N, _)

/-- After the last step of a reduction the accumulator is its block of the whole product. -/
theorem flushed6_eq (c : Dev nD) (t : Fin cfg6.N) (hf : (cfg6.win 2).flush t = true) :
    (dat6 V c).flushed 2 t
      = ((cfg6.win 2).blk t).view.read (Elt Ideal) (mm (M := 8192) (K := 4096) (N := 10) (V c main_v11) (V c main_arg4)) := by
  have hl : t.val % 4 = 3 := (flush6_2 t).mp hf
  have htl : t.val < 32 := lt_of_lt_of_eq t.isLt N_6
  obtain ⟨-, -, -, -, ei, ej⟩ := idx_facts6 t
  show (cfg6.win 2).cut (grid6.coords t) ((dat6 V c).after 2 t) = _
  rw [after6_2]
  funext y
  obtain ⟨r, q, rfl⟩ : ∃ (r : Fin 1024) (q : Fin 10), y = ix2 r q := ⟨y 0, y 1, eq_ix2 y⟩
  have hr := r.isLt
  have hq := q.isLt
  rw [View.read_apply, show ((cfg6.win 2).blk t).view.emb (ix2 r q)
      = ix2 (⟨t.val / 4 * 1024 + r.val, by omega⟩ : Fin 8192) (⟨t.val / 4 % 1 * 10 + q.val, by omega⟩ : Fin 10) from
    Shape.idx_ext₂ (by show win6_2.index t (0 : Fin 2) * 1024 + 1 * r.val = t.val / 4 * 1024 + r.val; omega)
      (by show win6_2.index t (1 : Fin 2) * 10 + 1 * q.val = t.val / 4 % 1 * 10 + q.val; omega)]
  refine acc_mm 1 4 1024 (accAt6 V c) (fun u => iblk6 V c 0 u) (fun u => iblk6 V c 1 u) (fun n h hn => ?_) (fun n h hn => ?_)
    (V c main_v11) (V c main_arg4) (fun u r kk i k hi hk => ?_) (fun u q kk j k hj hk => ?_) t hl (by decide) r q _ _ rfl rfl
  · have hf := (first_iff6 ⟨n, h⟩).mpr hn
    cases n <;> (unfold accAt6 accStep6; rw [if_pos hf, step6]; exact funext fun y => (congrArg (· + _) (start6 y)).trans (zero_add _))
  · show accStep6 _ _ _ (accAt6 V c n _) = _
    unfold accStep6
    rw [if_neg fun hh => hn ((first_iff6 ⟨n + 1, h⟩).mp hh), step6]
    rfl
  · obtain ⟨ei, ek, -⟩ := idx_facts6 u
    show ((cfg6.win 0).blk u).view.read (Elt Ideal) (V c main_v11) (ix2 r kk) = _
    rw [View.read_apply]
    exact congrArg (V c main_v11) (Shape.idx_ext₂ (by show win6_0.index u (0 : Fin 2) * 1024 + 1 * r.val = i.val; omega)
      (by show win6_0.index u (1 : Fin 2) * 1024 + 1 * kk.val = k.val; omega))
  · obtain ⟨-, -, ej, ek, -⟩ := idx_facts6 u
    show ((cfg6.win 1).blk u).view.read (Elt Ideal) (V c main_arg4) (ix2 q kk) = _
    rw [View.read_apply]
    exact congrArg (V c main_arg4) (Shape.idx_ext₂ (by show win6_1.index u (0 : Fin 2) * 10 + 1 * q.val = j.val; omega)
      (by show win6_1.index u (1 : Fin 2) * 1024 + 1 * kk.val = k.val; omega))

/-- Entry (row, col) lies in the output block (row / 1024, col / 10), at the last point of its reduction. -/
theorem cover6 (i : S8192x10.Idx) :
    ∃ t : Fin cfg6.N, (cfg6.win 2).flush t = true ∧ i ∈ ((cfg6.win 2).blk t).view.set := by
  have hi : (i 0).val < 8192 := idx2_lt0 i
  have hj : (i 1).val < 10 := idx2_lt1 i
  obtain ⟨t, ht⟩ : ∃ t : Fin cfg6.N, t.val = ((i 0).val / 1024 * 1 + (i 1).val / 10) * 4 + 3 :=
    ⟨⟨_, lt_of_lt_of_eq (by omega) N_6.symm⟩, rfl⟩
  obtain ⟨-, -, -, -, ei, ej⟩ := idx_facts6 t
  refine ⟨t, (flush6_2 t).mpr (by omega), ?_⟩
  show i ∈ ((View.whole main_v12).slice (win6_2.rect t)).set
  rw [View.set_slice_whole, Rect.mem_set_unit]
  intro a
  match a with
  | ⟨0, _⟩ => show win6_2.index t (0 : Fin 2) * 1024 ≤ (i 0).val ∧ (i 0).val < win6_2.index t (0 : Fin 2) * 1024 + 1024; omega
  | ⟨1, _⟩ => show win6_2.index t (1 : Fin 2) * 10 ≤ (i 1).val ∧ (i 1).val < win6_2.index t (1 : Fin 2) * 10 + 10; omega

/-- The output array ends as the whole binarized product of the arrays the region was entered with. -/
theorem final6 (V : (c : Dev nD) → (b : Ref sig .tc) → Buf (Elt Ideal) ((c : Thread nD τ).loc b)) (c : Dev nD) :
    (dat6 (F := Ideal) V c).arrAt 2 cfg6.N
      = Cert.Layers.mm (M := 8192) (K := 4096) (N := 10) (V c main_v11) (V c main_arg4) :=
  (dat6 V c).arrAt_eq_of_cover 2 _ (fun t hf => flushed6_eq V c t hf) cover6

end Cert.KernelIdeal.Fr

end
-- ==== Proof.RefRead.lean ====
/- The reference's last stage as a function of its arguments: one layer's stages, stated once over any extents. -/
import proofs.«147723_j3221225472529_1_alg».proof.Proof.Gen.ReferenceIdeal
import Idealize.ShloMosaic.Lib.StableHlo.Run

noncomputable section

namespace Cert.ReferenceIdeal.ReadP

open Cert.ReferenceIdeal Cert.ReferenceIdeal.Gen Idealize.ShloMosaic Idealize.ShloMosaic.StableHlo

variable {F : FTy → Type} [FloatOps F]

abbrev Arr (F : FTy → Type) (s : Shape) : Type := (⟨s, .f32⟩ : BufTy).Contents (Elt F)

/-- The scalar word `b` at every index of `s`. -/
def fill (s : Shape) (h : S_.BroadcastsInDim s ![]) (b : BitVec 32) : Arr F s :=
  broadcastInDim s ![] h (constant S_ .f32 b)

/-- +1 where an entry is ≥ 0 and −1 elsewhere. -/
def sgnA {s : Shape} (h : S_.BroadcastsInDim s ![]) (x : Arr F s) : Arr F s :=
  id (select (cmpf .oge x (fill s h 0x00000000#32)) (fill s h 0x3F800000#32) (fill s h 0xBF800000#32))

/-- The product of `x` with the transposed signs of `w`. -/
def mmA {M K N : Nat} (x : Arr F ⟨2, ![M, K]⟩) (w : Arr F ⟨2, ![N, K]⟩)
    (hb : S_.BroadcastsInDim ⟨2, ![N, K]⟩ ![] := by decide)
    (ht : (⟨2, ![N, K]⟩ : Shape).Transposes [1, 0] ⟨2, ![K, N]⟩ := by decide) : Arr F ⟨2, ![M, N]⟩ :=
  Host.dotGeneral (DotDims.plain M K N) none x (transpose ⟨2, ![K, N]⟩ [1, 0] (sgnA hb w) ht)

section Norm

variable {M N : Nat} (h : Arr F ⟨2, ![M, N]⟩) (g b : Arr F ⟨1, ![N]⟩)
  (hr : (⟨2, ![M, N]⟩ : Shape).ReducesTo [0] ⟨1, ![N]⟩ := by decide)
  (h0 : S_.BroadcastsInDim ⟨1, ![N]⟩ ![] := by decide)
  (h1 : (⟨1, ![N]⟩ : Shape).BroadcastsInDim ⟨2, ![1, N]⟩ ![1] := by decide)
  (h2 : (⟨2, ![1, N]⟩ : Shape).BroadcastsInDim ⟨2, ![M, N]⟩ ![0, 1] := by decide)

/-- A vector repeated along the rows. -/
def rowsA (v : Arr F ⟨1, ![N]⟩) : Arr F ⟨2, ![M, N]⟩ :=
  broadcastInDim ⟨2, ![M, N]⟩ ![0, 1] h2 (broadcastInDim ⟨2, ![1, N]⟩ ![1] h1 v)

/-- The column sums divided by the batch-size word. -/
def meanA : Arr F ⟨1, ![N]⟩ :=
  Host.divf (Host.reduceAdd h (constant S_ .f32 0x00000000#32) hr h_S_) (fill _ h0 0x46000000#32)

/-- Every entry minus its column's mean. -/
def devA : Arr F ⟨2, ![M, N]⟩ := subf h (rowsA h1 h2 (meanA h hr h0))

/-- The column means of the squared deviations. -/
def varA : Arr F ⟨1, ![N]⟩ := meanA (mulf (devA h hr h0 h1 h2) (devA h hr h0 h1 h2)) hr h0

/-- The deviations times `g · rsqrt(var + ε)`, plus `b`, column by column. -/
def bnA : Arr F ⟨2, ![M, N]⟩ :=
  addf (mulf (devA h hr h0 h1 h2)
    (rowsA h1 h2 (mulf g (Host.rsqrt (addf (varA h hr h0 h1 h2) (fill _ h0 0x3727C5AC#32)))))) (rowsA h1 h2 b)

/-- The normalisation followed by the sign. -/
def bnSgnA (hs : S_.BroadcastsInDim ⟨2, ![M, N]⟩ ![] := by decide) : Arr F ⟨2, ![M, N]⟩ :=
  sgnA hs (bnA h g b hr h0 h1 h2)

end Norm

/-- Four products, each normalised, the first three followed by the sign. -/
def val_main_v127 (x0 : Arr F S8192x784) (x1 : Arr F S4096x784) (x2 x3 : Arr F S4096x4096) (x4 : Arr F S10x4096)
    (x5 x6 x7 x8 x9 x10 : Arr F S4096) (x11 x12 : Arr F S10) : Arr F S8192x10 :=
  bnA (mmA (bnSgnA (mmA (bnSgnA (mmA (bnSgnA (mmA x0 x1) x5 x6) x2) x7 x8) x3) x9 x10) x4) x11 x12

end Cert.ReferenceIdeal.ReadP

end
-- ==== Proof.RefRun.lean ====
import proofs.«147723_j3221225472529_1_alg».proof.Proof.Gen.ReferenceIdeal
import proofs.«147723_j3221225472529_1_alg».proof.Proof.RefRead
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_cst (constant S_ .f32 0x00000000#32),
    unary main_cst main_v0 (broadcastInDim S4096x784 ![] bcast_S_S4096x784 : (⟨S_, .f32⟩ : BufTy).Contents (Elt F) → (⟨S4096x784, .f32⟩ : BufTy).Contents (Elt F)),
    binary main_arg1 main_v0 main_v1 (cmpf .oge : (⟨S4096x784, .f32⟩ : BufTy).Contents (Elt F) → (⟨S4096x784, .f32⟩ : BufTy).Contents (Elt F) → (⟨S4096x784, .i1⟩ : BufTy).Contents (Elt F)),
    nullary main_cst_0 (constant S_ .f32 0x3F800000#32),
    nullary main_cst_1 (constant S_ .f32 0xBF800000#32),
    TRef.unary (TRef.of (T := ⟨S_, .f32⟩) main_cst_0) (TRef.of (T := ⟨S4096x784, .f32⟩) main_call0_v0) (broadcastInDim S4096x784 ![] bcast_S_S4096x784),
    TRef.unary (TRef.of (T := ⟨S_, .f32⟩) main_cst_1) (TRef.of (T := ⟨S4096x784, .f32⟩) main_call0_v1) (broadcastInDim S4096x784 ![] bcast_S_S4096x784),
    TRef.ternary (TRef.of (T := ⟨S4096x784, .i1⟩) main_v1) (TRef.of (T := ⟨S4096x784, .f32⟩) main_call0_v0) (TRef.of (T := ⟨S4096x784, .f32⟩) main_call0_v1) (TRef.of (T := ⟨S4096x784, .f32⟩) main_v2) select,
    unary main_v2 main_v3 (id : (⟨S4096x784, .f32⟩ : BufTy).Contents (Elt F) → (⟨S4096x784, .f32⟩ : BufTy).Contents (Elt F)),
    unary main_v3 main_v4 ((transpose S784x4096 [1, 0] · transposes_S4096x784_S784x4096_1_0) : (⟨S4096x784, .f32⟩ : BufTy).Contents (Elt F) → (⟨S784x4096, .f32⟩ : BufTy).Contents (Elt F)),
    binary main_arg0 main_v4 main_v5 ((fun l r => Host.dotGeneral dot_S8192x784_S784x4096_S8192x4096_1_0_0_1_n_n none l r) : (⟨S8192x784, .f32⟩ : BufTy).Contents (Elt F) → (⟨S784x4096, .f32⟩ : BufTy).Contents (Elt F) → (⟨S8192x4096, .f32⟩ : BufTy).Contents (Elt F)),
    nullary main_cst_2 (constant S_ .f32 0x00000000#32),
    binary main_v5 main_cst_2 main_v6 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_3 (constant S_ .f32 0x46000000#32),
    unary main_cst_3 main_v7 (broadcastInDim S4096 ![] bcast_S_S4096 : (⟨S_, .f32⟩ : BufTy).Contents (Elt F) → (⟨S4096, .f32⟩ : BufTy).Contents (Elt F)),
    binary main_v6 main_v7 main_v8 (Host.divf : (⟨S4096, .f32⟩ : BufTy).Contents (Elt F) → (⟨S4096, .f32⟩ : BufTy).Contents (Elt F) → (⟨S4096, .f32⟩ : BufTy).Contents (Elt F)),
    unary main_v8 main_v9 (broadcastInDim S1x4096 ![1] bcast_S4096_S1x4096_1 : (⟨S4096, .f32⟩ : BufTy).Contents (Elt F) → (⟨S1x4096, .f32⟩ : BufTy).Contents (Elt F)),
    unary main_v9 main_v10 (broadcastInDim S8192x4096 ![0, 1] bcast_S1x4096_S8192x4096_0_1 : (⟨S1x4096, .f32⟩ : BufTy).Contents (Elt F) → (⟨S8192x4096, .f32⟩ : BufTy).Contents (Elt F)),
    binary main_v5 main_v10 main_v11 (subf : (⟨S8192x4096, .f32⟩ : BufTy).Contents (Elt F) → (⟨S8192x4096, .f32⟩ : BufTy).Contents (Elt F) → (⟨S8192x4096, .f32⟩ : BufTy).Contents (Elt F)),
    binary main_v11 main_v11 main_v12 (mulf : (⟨S8192x4096, .f32⟩ : BufTy).Contents (Elt F) → (⟨S8192x4096, .f32⟩ : BufTy).Contents (Elt F) → (⟨S8192x4096, .f32⟩ : BufTy).Contents (Elt F)),
    nullary main_cst_4 (constant S_ .f32 0x00000000#32),
    binary main_v12 main_cst_4 main_v13 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_5 (constant S_ .f32 0x46000000#32),
    unary main_cst_5 main_v14 (broadcastInDim S4096 ![] bcast_S_S4096 : (⟨S_, .f32⟩ : BufTy).Contents (Elt F) → (⟨S4096, .f32⟩ : BufTy).Contents (Elt F)),
    binary main_v13 main_v14 main_v15 (Host.divf : (⟨S4096, .f32⟩ : BufTy).Contents (Elt F) → (⟨S4096, .f32⟩ : BufTy).Contents (Elt F) → (⟨S4096, .f32⟩ : BufTy).Contents (Elt F)),
    unary main_v8 main_v16 (broadcastInDim S1x4096 ![1] bcast_S4096_S1x4096_1 : (⟨S4096, .f32⟩ : BufTy).Contents (Elt F) → (⟨S1x4096, .f32⟩ : BufTy).Contents (Elt F)),
    unary main_v16 main_v17 (broadcastInDim S8192x4096 ![0, 1] bcast_S1x4096_S8192x4096_0_1 : (⟨S1x4096, .f32⟩ : BufTy).Contents (Elt F) → (⟨S8192x4096, .f32⟩ : BufTy).Contents (Elt F)),
    binary main_v5 main_v17 main_v18 (subf : (⟨S8192x4096, .f32⟩ : BufTy).Contents (Elt F) → (⟨S8192x4096, .f32⟩ : BufTy).Contents (Elt F) → (⟨S8192x4096, .f32⟩ : BufTy).Contents (Elt F)),
    nullary main_cst_6 (constant S_ .f32 0x3727C5AC#32),
    unary main_cst_6 main_v19 (broadcastInDim S4096 ![] bcast_S_S4096 : (⟨S_, .f32⟩ : BufTy).Contents (Elt F) → (⟨S4096, .f32⟩ : BufTy).Contents (Elt F)),
    binary main_v15 main_v19 main_v20 (addf : (⟨S4096, .f32⟩ : BufTy).Contents (Elt F) → (⟨S4096, .f32⟩ : BufTy).Contents (Elt F) → (⟨S4096, .f32⟩ : BufTy).Contents (Elt F)),
    unary main_v20 main_v21 (Host.rsqrt : (⟨S4096, .f32⟩ : BufTy).Contents (Elt F) → (⟨S4096, .f32⟩ : BufTy).Contents (Elt F)),
    binary main_arg5 main_v21 main_v22 (mulf : (⟨S4096, .f32⟩ : BufTy).Contents (Elt F) → (⟨S4096, .f32⟩ : BufTy).Contents (Elt F) → (⟨S4096, .f32⟩ : BufTy).Contents (Elt F)),
    unary main_v22 main_v23 (broadcastInDim S1x4096 ![1] bcast_S4096_S1x4096_1 : (⟨S4096, .f32⟩ : BufTy).Contents (Elt F) → (⟨S1x4096, .f32⟩ : BufTy).Contents (Elt F)),
    unary main_v23 main_v24 (broadcastInDim S8192x4096 ![0, 1] bcast_S1x4096_S8192x4096_0_1 : (⟨S1x4096, .f32⟩ : BufTy).Contents (Elt F) → (⟨S8192x4096, .f32⟩ : BufTy).Contents (Elt F)),
    binary main_v18 main_v24 main_v25 (mulf : (⟨S8192x4096, .f32⟩ : BufTy).Contents (Elt F) → (⟨S8192x4096, .f32⟩ : BufTy).Contents (Elt F) → (⟨S8192x4096, .f32⟩ : BufTy).Contents (Elt F)),
    unary main_arg6 main_v26 (broadcastInDim S1x4096 ![1] bcast_S4096_S1x4096_1 : (⟨S4096, .f32⟩ : BufTy).Contents (Elt F) → (⟨S1x4096, .f32⟩ : BufTy).Contents (Elt F)),
    unary main_v26 main_v27 (broadcastInDim S8192x4096 ![0, 1] bcast_S1x4096_S8192x4096_0_1 : (⟨S1x4096, .f32⟩ : BufTy).Contents (Elt F) → (⟨S8192x4096, .f32⟩ : BufTy).Contents (Elt F)),
    binary main_v25 main_v27 main_v28 (addf : (⟨S8192x4096, .f32⟩ : BufTy).Contents (Elt F) → (⟨S8192x4096, .f32⟩ : BufTy).Contents (Elt F) → (⟨S8192x4096, .f32⟩ : BufTy).Contents (Elt F)),
    nullary main_cst_7 (constant S_ .f32 0x00000000#32),
    unary main_cst_7 main_v29 (broadcastInDim S8192x4096 ![] bcast_S_S8192x4096 : (⟨S_, .f32⟩ : BufTy).Contents (Elt F) → (⟨S8192x4096, .f32⟩ : BufTy).Contents (Elt F)),
    binary main_v28 main_v29 main_v30 (cmpf .oge : (⟨S8192x4096, .f32⟩ : BufTy).Contents (Elt F) → (⟨S8192x4096, .f32⟩ : BufTy).Contents (Elt F) → (⟨S8192x4096, .i1⟩ : BufTy).Contents (Elt F)),
    nullary main_cst_8 (constant S_ .f32 0x3F800000#32),
    nullary main_cst_9 (constant S_ .f32 0xBF800000#32),
    TRef.unary (TRef.of (T := ⟨S_, .f32⟩) main_cst_8) (TRef.of (T := ⟨S8192x4096, .f32⟩) main_call1_v0) (broadcastInDim S8192x4096 ![] bcast_S_S8192x4096),
    TRef.unary (TRef.of (T := ⟨S_, .f32⟩) main_cst_9) (TRef.of (T := ⟨S8192x4096, .f32⟩) main_call1_v1) (broadcastInDim S8192x4096 ![] bcast_S_S8192x4096),
    TRef.ternary (TRef.of (T := ⟨S8192x4096, .i1⟩) main_v30) (TRef.of (T := ⟨S8192x4096, .f32⟩) main_call1_v0) (TRef.of (T := ⟨S8192x4096, .f32⟩) main_call1_v1) (TRef.of (T := ⟨S8192x4096, .f32⟩) main_v31) select,
    unary main_v31 main_v32 (id : (⟨S8192x4096, .f32⟩ : BufTy).Contents (Elt F) → (⟨S8192x4096, .f32⟩ : BufTy).Contents (Elt F)),
    nullary main_cst_10 (constant S_ .f32 0x00000000#32),
    unary main_cst_10 main_v33 (broadcastInDim S4096x4096 ![] bcast_S_S4096x4096 : (⟨S_, .f32⟩ : BufTy).Contents (Elt F) → (⟨S4096x4096, .f32⟩ : BufTy).Contents (Elt F)),
    binary main_arg2 main_v33 main_v34 (cmpf .oge : (⟨S4096x4096, .f32⟩ : BufTy).Contents (Elt F) → (⟨S4096x4096, .f32⟩ : BufTy).Contents (Elt F) → (⟨S4096x4096, .i1⟩ : BufTy).Contents (Elt F)),
    nullary main_cst_11 (constant S_ .f32 0x3F800000#32),
    nullary main_cst_12 (constant S_ .f32 0xBF800000#32),
    TRef.unary (TRef.of (T := ⟨S_, .f32⟩) main_cst_11) (TRef.of (T := ⟨S4096x4096, .f32⟩) main_call2_v0) (broadcastInDim S4096x4096 ![] bcast_S_S4096x4096),
    TRef.unary (TRef.of (T := ⟨S_, .f32⟩) main_cst_12) (TRef.of (T := ⟨S4096x4096, .f32⟩) main_call2_v1) (broadcastInDim S4096x4096 ![] bcast_S_S4096x4096),
    TRef.ternary (TRef.of (T := ⟨S4096x4096, .i1⟩) main_v34) (TRef.of (T := ⟨S4096x4096, .f32⟩) main_call2_v0) (TRef.of (T := ⟨S4096x4096, .f32⟩) main_call2_v1) (TRef.of (T := ⟨S4096x4096, .f32⟩) main_v35) select,
    unary main_v35 main_v36 (id : (⟨S4096x4096, .f32⟩ : BufTy).Contents (Elt F) → (⟨S4096x4096, .f32⟩ : BufTy).Contents (Elt F)),
    unary main_v36 main_v37 ((transpose S4096x4096 [1, 0] · transposes_S4096x4096_S4096x4096_1_0) : (⟨S4096x4096, .f32⟩ : BufTy).Contents (Elt F) → (⟨S4096x4096, .f32⟩ : BufTy).Contents (Elt F)),
    binary main_v32 main_v37 main_v38 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_cst_13 (constant S_ .f32 0x00000000#32),
    binary main_v38 main_cst_13 main_v39 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_14 (constant S_ .f32 0x46000000#32),
    unary main_cst_14 main_v40 (broadcastInDim S4096 ![] bcast_S_S4096 : (⟨S_, .f32⟩ : BufTy).Contents (Elt F) → (⟨S4096, .f32⟩ : BufTy).Contents (Elt F)),
    binary main_v39 main_v40 main_v41 (Host.divf : (⟨S4096, .f32⟩ : BufTy).Contents (Elt F) → (⟨S4096, .f32⟩ : BufTy).Contents (Elt F) → (⟨S4096, .f32⟩ : BufTy).Contents (Elt F)),
    unary main_v41 main_v42 (broadcastInDim S1x4096 ![1] bcast_S4096_S1x4096_1 : (⟨S4096, .f32⟩ : BufTy).Contents (Elt F) → (⟨S1x4096, .f32⟩ : BufTy).Contents (Elt F)),
    unary main_v42 main_v43 (broadcastInDim S8192x4096 ![0, 1] bcast_S1x4096_S8192x4096_0_1 : (⟨S1x4096, .f32⟩ : BufTy).Contents (Elt F) → (⟨S8192x4096, .f32⟩ : BufTy).Contents (Elt F)),
    binary main_v38 main_v43 main_v44 (subf : (⟨S8192x4096, .f32⟩ : BufTy).Contents (Elt F) → (⟨S8192x4096, .f32⟩ : BufTy).Contents (Elt F) → (⟨S8192x4096, .f32⟩ : BufTy).Contents (Elt F)),
    binary main_v44 main_v44 main_v45 (mulf : (⟨S8192x4096, .f32⟩ : BufTy).Contents (Elt F) → (⟨S8192x4096, .f32⟩ : BufTy).Contents (Elt F) → (⟨S8192x4096, .f32⟩ : BufTy).Contents (Elt F)),
    nullary main_cst_15 (constant S_ .f32 0x00000000#32),
    binary main_v45 main_cst_15 main_v46 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_16 (constant S_ .f32 0x46000000#32),
    unary main_cst_16 main_v47 (broadcastInDim S4096 ![] bcast_S_S4096 : (⟨S_, .f32⟩ : BufTy).Contents (Elt F) → (⟨S4096, .f32⟩ : BufTy).Contents (Elt F)),
    binary main_v46 main_v47 main_v48 (Host.divf : (⟨S4096, .f32⟩ : BufTy).Contents (Elt F) → (⟨S4096, .f32⟩ : BufTy).Contents (Elt F) → (⟨S4096, .f32⟩ : BufTy).Contents (Elt F)),
    unary main_v41 main_v49 (broadcastInDim S1x4096 ![1] bcast_S4096_S1x4096_1 : (⟨S4096, .f32⟩ : BufTy).Contents (Elt F) → (⟨S1x4096, .f32⟩ : BufTy).Contents (Elt F)),
    unary main_v49 main_v50 (broadcastInDim S8192x4096 ![0, 1] bcast_S1x4096_S8192x4096_0_1 : (⟨S1x4096, .f32⟩ : BufTy).Contents (Elt F) → (⟨S8192x4096, .f32⟩ : BufTy).Contents (Elt F)),
    binary main_v38 main_v50 main_v51 (subf : (⟨S8192x4096, .f32⟩ : BufTy).Contents (Elt F) → (⟨S8192x4096, .f32⟩ : BufTy).Contents (Elt F) → (⟨S8192x4096, .f32⟩ : BufTy).Contents (Elt F)),
    nullary main_cst_17 (constant S_ .f32 0x3727C5AC#32),
    unary main_cst_17 main_v52 (broadcastInDim S4096 ![] bcast_S_S4096 : (⟨S_, .f32⟩ : BufTy).Contents (Elt F) → (⟨S4096, .f32⟩ : BufTy).Contents (Elt F)),
    binary main_v48 main_v52 main_v53 (addf : (⟨S4096, .f32⟩ : BufTy).Contents (Elt F) → (⟨S4096, .f32⟩ : BufTy).Contents (Elt F) → (⟨S4096, .f32⟩ : BufTy).Contents (Elt F)),
    unary main_v53 main_v54 (Host.rsqrt : (⟨S4096, .f32⟩ : BufTy).Contents (Elt F) → (⟨S4096, .f32⟩ : BufTy).Contents (Elt F)),
    binary main_arg7 main_v54 main_v55 (mulf : (⟨S4096, .f32⟩ : BufTy).Contents (Elt F) → (⟨S4096, .f32⟩ : BufTy).Contents (Elt F) → (⟨S4096, .f32⟩ : BufTy).Contents (Elt F)),
    unary main_v55 main_v56 (broadcastInDim S1x4096 ![1] bcast_S4096_S1x4096_1 : (⟨S4096, .f32⟩ : BufTy).Contents (Elt F) → (⟨S1x4096, .f32⟩ : BufTy).Contents (Elt F)),
    unary main_v56 main_v57 (broadcastInDim S8192x4096 ![0, 1] bcast_S1x4096_S8192x4096_0_1 : (⟨S1x4096, .f32⟩ : BufTy).Contents (Elt F) → (⟨S8192x4096, .f32⟩ : BufTy).Contents (Elt F)),
    binary main_v51 main_v57 main_v58 (mulf : (⟨S8192x4096, .f32⟩ : BufTy).Contents (Elt F) → (⟨S8192x4096, .f32⟩ : BufTy).Contents (Elt F) → (⟨S8192x4096, .f32⟩ : BufTy).Contents (Elt F)),
    unary main_arg8 main_v59 (broadcastInDim S1x4096 ![1] bcast_S4096_S1x4096_1 : (⟨S4096, .f32⟩ : BufTy).Contents (Elt F) → (⟨S1x4096, .f32⟩ : BufTy).Contents (Elt F)),
    unary main_v59 main_v60 (broadcastInDim S8192x4096 ![0, 1] bcast_S1x4096_S8192x4096_0_1 : (⟨S1x4096, .f32⟩ : BufTy).Contents (Elt F) → (⟨S8192x4096, .f32⟩ : BufTy).Contents (Elt F)),
    binary main_v58 main_v60 main_v61 (addf : (⟨S8192x4096, .f32⟩ : BufTy).Contents (Elt F) → (⟨S8192x4096, .f32⟩ : BufTy).Contents (Elt F) → (⟨S8192x4096, .f32⟩ : BufTy).Contents (Elt F)),
    nullary main_cst_18 (constant S_ .f32 0x00000000#32),
    unary main_cst_18 main_v62 (broadcastInDim S8192x4096 ![] bcast_S_S8192x4096 : (⟨S_, .f32⟩ : BufTy).Contents (Elt F) → (⟨S8192x4096, .f32⟩ : BufTy).Contents (Elt F)),
    binary main_v61 main_v62 main_v63 (cmpf .oge : (⟨S8192x4096, .f32⟩ : BufTy).Contents (Elt F) → (⟨S8192x4096, .f32⟩ : BufTy).Contents (Elt F) → (⟨S8192x4096, .i1⟩ : BufTy).Contents (Elt F)),
    nullary main_cst_19 (constant S_ .f32 0x3F800000#32),
    nullary main_cst_20 (constant S_ .f32 0xBF800000#32),
    TRef.unary (TRef.of (T := ⟨S_, .f32⟩) main_cst_19) (TRef.of (T := ⟨S8192x4096, .f32⟩) main_call3_v0) (broadcastInDim S8192x4096 ![] bcast_S_S8192x4096),
    TRef.unary (TRef.of (T := ⟨S_, .f32⟩) main_cst_20) (TRef.of (T := ⟨S8192x4096, .f32⟩) main_call3_v1) (broadcastInDim S8192x4096 ![] bcast_S_S8192x4096),
    TRef.ternary (TRef.of (T := ⟨S8192x4096, .i1⟩) main_v63) (TRef.of (T := ⟨S8192x4096, .f32⟩) main_call3_v0) (TRef.of (T := ⟨S8192x4096, .f32⟩) main_call3_v1) (TRef.of (T := ⟨S8192x4096, .f32⟩) main_v64) select,
    unary main_v64 main_v65 (id : (⟨S8192x4096, .f32⟩ : BufTy).Contents (Elt F) → (⟨S8192x4096, .f32⟩ : BufTy).Contents (Elt F)),
    nullary main_cst_21 (constant S_ .f32 0x00000000#32),
    unary main_cst_21 main_v66 (broadcastInDim S4096x4096 ![] bcast_S_S4096x4096 : (⟨S_, .f32⟩ : BufTy).Contents (Elt F) → (⟨S4096x4096, .f32⟩ : BufTy).Contents (Elt F)),
    binary main_arg3 main_v66 main_v67 (cmpf .oge : (⟨S4096x4096, .f32⟩ : BufTy).Contents (Elt F) → (⟨S4096x4096, .f32⟩ : BufTy).Contents (Elt F) → (⟨S4096x4096, .i1⟩ : BufTy).Contents (Elt F)),
    nullary main_cst_22 (constant S_ .f32 0x3F800000#32),
    nullary main_cst_23 (constant S_ .f32 0xBF800000#32),
    TRef.unary (TRef.of (T := ⟨S_, .f32⟩) main_cst_22) (TRef.of (T := ⟨S4096x4096, .f32⟩) main_call4_v0) (broadcastInDim S4096x4096 ![] bcast_S_S4096x4096),
    TRef.unary (TRef.of (T := ⟨S_, .f32⟩) main_cst_23) (TRef.of (T := ⟨S4096x4096, .f32⟩) main_call4_v1) (broadcastInDim S4096x4096 ![] bcast_S_S4096x4096),
    TRef.ternary (TRef.of (T := ⟨S4096x4096, .i1⟩) main_v67) (TRef.of (T := ⟨S4096x4096, .f32⟩) main_call4_v0) (TRef.of (T := ⟨S4096x4096, .f32⟩) main_call4_v1) (TRef.of (T := ⟨S4096x4096, .f32⟩) main_v68) select,
    unary main_v68 main_v69 (id : (⟨S4096x4096, .f32⟩ : BufTy).Contents (Elt F) → (⟨S4096x4096, .f32⟩ : BufTy).Contents (Elt F)),
    unary main_v69 main_v70 ((transpose S4096x4096 [1, 0] · transposes_S4096x4096_S4096x4096_1_0) : (⟨S4096x4096, .f32⟩ : BufTy).Contents (Elt F) → (⟨S4096x4096, .f32⟩ : BufTy).Contents (Elt F)),
    binary main_v65 main_v70 main_v71 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_cst_24 (constant S_ .f32 0x00000000#32),
    binary main_v71 main_cst_24 main_v72 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_25 (constant S_ .f32 0x46000000#32),
    unary main_cst_25 main_v73 (broadcastInDim S4096 ![] bcast_S_S4096 : (⟨S_, .f32⟩ : BufTy).Contents (Elt F) → (⟨S4096, .f32⟩ : BufTy).Contents (Elt F)),
    binary main_v72 main_v73 main_v74 (Host.divf : (⟨S4096, .f32⟩ : BufTy).Contents (Elt F) → (⟨S4096, .f32⟩ : BufTy).Contents (Elt F) → (⟨S4096, .f32⟩ : BufTy).Contents (Elt F)),
    unary main_v74 main_v75 (broadcastInDim S1x4096 ![1] bcast_S4096_S1x4096_1 : (⟨S4096, .f32⟩ : BufTy).Contents (Elt F) → (⟨S1x4096, .f32⟩ : BufTy).Contents (Elt F)),
    unary main_v75 main_v76 (broadcastInDim S8192x4096 ![0, 1] bcast_S1x4096_S8192x4096_0_1 : (⟨S1x4096, .f32⟩ : BufTy).Contents (Elt F) → (⟨S8192x4096, .f32⟩ : BufTy).Contents (Elt F)),
    binary main_v71 main_v76 main_v77 (subf : (⟨S8192x4096, .f32⟩ : BufTy).Contents (Elt F) → (⟨S8192x4096, .f32⟩ : BufTy).Contents (Elt F) → (⟨S8192x4096, .f32⟩ : BufTy).Contents (Elt F)),
    binary main_v77 main_v77 main_v78 (mulf : (⟨S8192x4096, .f32⟩ : BufTy).Contents (Elt F) → (⟨S8192x4096, .f32⟩ : BufTy).Contents (Elt F) → (⟨S8192x4096, .f32⟩ : BufTy).Contents (Elt F)),
    nullary main_cst_26 (constant S_ .f32 0x00000000#32),
    binary main_v78 main_cst_26 main_v79 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_27 (constant S_ .f32 0x46000000#32),
    unary main_cst_27 main_v80 (broadcastInDim S4096 ![] bcast_S_S4096 : (⟨S_, .f32⟩ : BufTy).Contents (Elt F) → (⟨S4096, .f32⟩ : BufTy).Contents (Elt F)),
    binary main_v79 main_v80 main_v81 (Host.divf : (⟨S4096, .f32⟩ : BufTy).Contents (Elt F) → (⟨S4096, .f32⟩ : BufTy).Contents (Elt F) → (⟨S4096, .f32⟩ : BufTy).Contents (Elt F)),
    unary main_v74 main_v82 (broadcastInDim S1x4096 ![1] bcast_S4096_S1x4096_1 : (⟨S4096, .f32⟩ : BufTy).Contents (Elt F) → (⟨S1x4096, .f32⟩ : BufTy).Contents (Elt F)),
    unary main_v82 main_v83 (broadcastInDim S8192x4096 ![0, 1] bcast_S1x4096_S8192x4096_0_1 : (⟨S1x4096, .f32⟩ : BufTy).Contents (Elt F) → (⟨S8192x4096, .f32⟩ : BufTy).Contents (Elt F)),
    binary main_v71 main_v83 main_v84 (subf : (⟨S8192x4096, .f32⟩ : BufTy).Contents (Elt F) → (⟨S8192x4096, .f32⟩ : BufTy).Contents (Elt F) → (⟨S8192x4096, .f32⟩ : BufTy).Contents (Elt F)),
    nullary main_cst_28 (constant S_ .f32 0x3727C5AC#32),
    unary main_cst_28 main_v85 (broadcastInDim S4096 ![] bcast_S_S4096 : (⟨S_, .f32⟩ : BufTy).Contents (Elt F) → (⟨S4096, .f32⟩ : BufTy).Contents (Elt F)),
    binary main_v81 main_v85 main_v86 (addf : (⟨S4096, .f32⟩ : BufTy).Contents (Elt F) → (⟨S4096, .f32⟩ : BufTy).Contents (Elt F) → (⟨S4096, .f32⟩ : BufTy).Contents (Elt F)),
    unary main_v86 main_v87 (Host.rsqrt : (⟨S4096, .f32⟩ : BufTy).Contents (Elt F) → (⟨S4096, .f32⟩ : BufTy).Contents (Elt F)),
    binary main_arg9 main_v87 main_v88 (mulf : (⟨S4096, .f32⟩ : BufTy).Contents (Elt F) → (⟨S4096, .f32⟩ : BufTy).Contents (Elt F) → (⟨S4096, .f32⟩ : BufTy).Contents (Elt F)),
    unary main_v88 main_v89 (broadcastInDim S1x4096 ![1] bcast_S4096_S1x4096_1 : (⟨S4096, .f32⟩ : BufTy).Contents (Elt F) → (⟨S1x4096, .f32⟩ : BufTy).Contents (Elt F)),
    unary main_v89 main_v90 (broadcastInDim S8192x4096 ![0, 1] bcast_S1x4096_S8192x4096_0_1 : (⟨S1x4096, .f32⟩ : BufTy).Contents (Elt F) → (⟨S8192x4096, .f32⟩ : BufTy).Contents (Elt F)),
    binary main_v84 main_v90 main_v91 (mulf : (⟨S8192x4096, .f32⟩ : BufTy).Contents (Elt F) → (⟨S8192x4096, .f32⟩ : BufTy).Contents (Elt F) → (⟨S8192x4096, .f32⟩ : BufTy).Contents (Elt F)),
    unary main_arg10 main_v92 (broadcastInDim S1x4096 ![1] bcast_S4096_S1x4096_1 : (⟨S4096, .f32⟩ : BufTy).Contents (Elt F) → (⟨S1x4096, .f32⟩ : BufTy).Contents (Elt F)),
    unary main_v92 main_v93 (broadcastInDim S8192x4096 ![0, 1] bcast_S1x4096_S8192x4096_0_1 : (⟨S1x4096, .f32⟩ : BufTy).Contents (Elt F) → (⟨S8192x4096, .f32⟩ : BufTy).Contents (Elt F)),
    binary main_v91 main_v93 main_v94 (addf : (⟨S8192x4096, .f32⟩ : BufTy).Contents (Elt F) → (⟨S8192x4096, .f32⟩ : BufTy).Contents (Elt F) → (⟨S8192x4096, .f32⟩ : BufTy).Contents (Elt F)),
    nullary main_cst_29 (constant S_ .f32 0x00000000#32),
    unary main_cst_29 main_v95 (broadcastInDim S8192x4096 ![] bcast_S_S8192x4096 : (⟨S_, .f32⟩ : BufTy).Contents (Elt F) → (⟨S8192x4096, .f32⟩ : BufTy).Contents (Elt F)),
    binary main_v94 main_v95 main_v96 (cmpf .oge : (⟨S8192x4096, .f32⟩ : BufTy).Contents (Elt F) → (⟨S8192x4096, .f32⟩ : BufTy).Contents (Elt F) → (⟨S8192x4096, .i1⟩ : BufTy).Contents (Elt F)),
    nullary main_cst_30 (constant S_ .f32 0x3F800000#32),
    nullary main_cst_31 (constant S_ .f32 0xBF800000#32),
    TRef.unary (TRef.of (T := ⟨S_, .f32⟩) main_cst_30) (TRef.of (T := ⟨S8192x4096, .f32⟩) main_call5_v0) (broadcastInDim S8192x4096 ![] bcast_S_S8192x4096),
    TRef.unary (TRef.of (T := ⟨S_, .f32⟩) main_cst_31) (TRef.of (T := ⟨S8192x4096, .f32⟩) main_call5_v1) (broadcastInDim S8192x4096 ![] bcast_S_S8192x4096),
    TRef.ternary (TRef.of (T := ⟨S8192x4096, .i1⟩) main_v96) (TRef.of (T := ⟨S8192x4096, .f32⟩) main_call5_v0) (TRef.of (T := ⟨S8192x4096, .f32⟩) main_call5_v1) (TRef.of (T := ⟨S8192x4096, .f32⟩) main_v97) select,
    unary main_v97 main_v98 (id : (⟨S8192x4096, .f32⟩ : BufTy).Contents (Elt F) → (⟨S8192x4096, .f32⟩ : BufTy).Contents (Elt F)),
    nullary main_cst_32 (constant S_ .f32 0x00000000#32),
    unary main_cst_32 main_v99 (broadcastInDim S10x4096 ![] bcast_S_S10x4096 : (⟨S_, .f32⟩ : BufTy).Contents (Elt F) → (⟨S10x4096, .f32⟩ : BufTy).Contents (Elt F)),
    binary main_arg4 main_v99 main_v100 (cmpf .oge : (⟨S10x4096, .f32⟩ : BufTy).Contents (Elt F) → (⟨S10x4096, .f32⟩ : BufTy).Contents (Elt F) → (⟨S10x4096, .i1⟩ : BufTy).Contents (Elt F)),
    nullary main_cst_33 (constant S_ .f32 0x3F800000#32),
    nullary main_cst_34 (constant S_ .f32 0xBF800000#32),
    TRef.unary (TRef.of (T := ⟨S_, .f32⟩) main_cst_33) (TRef.of (T := ⟨S10x4096, .f32⟩) main_call6_v0) (broadcastInDim S10x4096 ![] bcast_S_S10x4096),
    TRef.unary (TRef.of (T := ⟨S_, .f32⟩) main_cst_34) (TRef.of (T := ⟨S10x4096, .f32⟩) main_call6_v1) (broadcastInDim S10x4096 ![] bcast_S_S10x4096),
    TRef.ternary (TRef.of (T := ⟨S10x4096, .i1⟩) main_v100) (TRef.of (T := ⟨S10x4096, .f32⟩) main_call6_v0) (TRef.of (T := ⟨S10x4096, .f32⟩) main_call6_v1) (TRef.of (T := ⟨S10x4096, .f32⟩) main_v101) select,
    unary main_v101 main_v102 (id : (⟨S10x4096, .f32⟩ : BufTy).Contents (Elt F) → (⟨S10x4096, .f32⟩ : BufTy).Contents (Elt F)),
    unary main_v102 main_v103 ((transpose S4096x10 [1, 0] · transposes_S10x4096_S4096x10_1_0) : (⟨S10x4096, .f32⟩ : BufTy).Contents (Elt F) → (⟨S4096x10, .f32⟩ : BufTy).Contents (Elt F)),
    binary main_v98 main_v103 main_v104 ((fun l r => Host.dotGeneral dot_S8192x4096_S4096x10_S8192x10_1_0_0_1_n_n none l r) : (⟨S8192x4096, .f32⟩ : BufTy).Contents (Elt F) → (⟨S4096x10, .f32⟩ : BufTy).Contents (Elt F) → (⟨S8192x10, .f32⟩ : BufTy).Contents (Elt F)),
    nullary main_cst_35 (constant S_ .f32 0x00000000#32),
    binary main_v104 main_cst_35 main_v105 ((fun x v => Host.reduceAdd x v reducesTo_S8192x10_S10_d0 h_S_) : (⟨S8192x10, .f32⟩ : BufTy).Contents (Elt F) → (⟨S_, .f32⟩ : BufTy).Contents (Elt F) → (⟨S10, .f32⟩ : BufTy).Contents (Elt F)),
    nullary main_cst_36 (constant S_ .f32 0x46000000#32),
    unary main_cst_36 main_v106 (broadcastInDim S10 ![] bcast_S_S10 : (⟨S_, .f32⟩ : BufTy).Contents (Elt F) → (⟨S10, .f32⟩ : BufTy).Contents (Elt F)),
    binary main_v105 main_v106 main_v107 (Host.divf : (⟨S10, .f32⟩ : BufTy).Contents (Elt F) → (⟨S10, .f32⟩ : BufTy).Contents (Elt F) → (⟨S10, .f32⟩ : BufTy).Contents (Elt F)),
    unary main_v107 main_v108 (broadcastInDim S1x10 ![1] bcast_S10_S1x10_1 : (⟨S10, .f32⟩ : BufTy).Contents (Elt F) → (⟨S1x10, .f32⟩ : BufTy).Contents (Elt F)),
    unary main_v108 main_v109 (broadcastInDim S8192x10 ![0, 1] bcast_S1x10_S8192x10_0_1 : (⟨S1x10, .f32⟩ : BufTy).Contents (Elt F) → (⟨S8192x10, .f32⟩ : BufTy).Contents (Elt F)),
    binary main_v104 main_v109 main_v110 (subf : (⟨S8192x10, .f32⟩ : BufTy).Contents (Elt F) → (⟨S8192x10, .f32⟩ : BufTy).Contents (Elt F) → (⟨S8192x10, .f32⟩ : BufTy).Contents (Elt F)),
    binary main_v110 main_v110 main_v111 (mulf : (⟨S8192x10, .f32⟩ : BufTy).Contents (Elt F) → (⟨S8192x10, .f32⟩ : BufTy).Contents (Elt F) → (⟨S8192x10, .f32⟩ : BufTy).Contents (Elt F)),
    nullary main_cst_37 (constant S_ .f32 0x00000000#32),
    binary main_v111 main_cst_37 main_v112 ((fun x v => Host.reduceAdd x v reducesTo_S8192x10_S10_d0 h_S_) : (⟨S8192x10, .f32⟩ : BufTy).Contents (Elt F) → (⟨S_, .f32⟩ : BufTy).Contents (Elt F) → (⟨S10, .f32⟩ : BufTy).Contents (Elt F)),
    nullary main_cst_38 (constant S_ .f32 0x46000000#32),
    unary main_cst_38 main_v113 (broadcastInDim S10 ![] bcast_S_S10 : (⟨S_, .f32⟩ : BufTy).Contents (Elt F) → (⟨S10, .f32⟩ : BufTy).Contents (Elt F)),
    binary main_v112 main_v113 main_v114 (Host.divf : (⟨S10, .f32⟩ : BufTy).Contents (Elt F) → (⟨S10, .f32⟩ : BufTy).Contents (Elt F) → (⟨S10, .f32⟩ : BufTy).Contents (Elt F)),
    unary main_v107 main_v115 (broadcastInDim S1x10 ![1] bcast_S10_S1x10_1 : (⟨S10, .f32⟩ : BufTy).Contents (Elt F) → (⟨S1x10, .f32⟩ : BufTy).Contents (Elt F)),
    unary main_v115 main_v116 (broadcastInDim S8192x10 ![0, 1] bcast_S1x10_S8192x10_0_1 : (⟨S1x10, .f32⟩ : BufTy).Contents (Elt F) → (⟨S8192x10, .f32⟩ : BufTy).Contents (Elt F)),
    binary main_v104 main_v116 main_v117 (subf : (⟨S8192x10, .f32⟩ : BufTy).Contents (Elt F) → (⟨S8192x10, .f32⟩ : BufTy).Contents (Elt F) → (⟨S8192x10, .f32⟩ : BufTy).Contents (Elt F)),
    nullary main_cst_39 (constant S_ .f32 0x3727C5AC#32),
    unary main_cst_39 main_v118 (broadcastInDim S10 ![] bcast_S_S10 : (⟨S_, .f32⟩ : BufTy).Contents (Elt F) → (⟨S10, .f32⟩ : BufTy).Contents (Elt F)),
    binary main_v114 main_v118 main_v119 (addf : (⟨S10, .f32⟩ : BufTy).Contents (Elt F) → (⟨S10, .f32⟩ : BufTy).Contents (Elt F) → (⟨S10, .f32⟩ : BufTy).Contents (Elt F)),
    unary main_v119 main_v120 (Host.rsqrt : (⟨S10, .f32⟩ : BufTy).Contents (Elt F) → (⟨S10, .f32⟩ : BufTy).Contents (Elt F)),
    binary main_arg11 main_v120 main_v121 (mulf : (⟨S10, .f32⟩ : BufTy).Contents (Elt F) → (⟨S10, .f32⟩ : BufTy).Contents (Elt F) → (⟨S10, .f32⟩ : BufTy).Contents (Elt F)),
    unary main_v121 main_v122 (broadcastInDim S1x10 ![1] bcast_S10_S1x10_1 : (⟨S10, .f32⟩ : BufTy).Contents (Elt F) → (⟨S1x10, .f32⟩ : BufTy).Contents (Elt F)),
    unary main_v122 main_v123 (broadcastInDim S8192x10 ![0, 1] bcast_S1x10_S8192x10_0_1 : (⟨S1x10, .f32⟩ : BufTy).Contents (Elt F) → (⟨S8192x10, .f32⟩ : BufTy).Contents (Elt F)),
    binary main_v117 main_v123 main_v124 (mulf : (⟨S8192x10, .f32⟩ : BufTy).Contents (Elt F) → (⟨S8192x10, .f32⟩ : BufTy).Contents (Elt F) → (⟨S8192x10, .f32⟩ : BufTy).Contents (Elt F)),
    unary main_arg12 main_v125 (broadcastInDim S1x10 ![1] bcast_S10_S1x10_1 : (⟨S10, .f32⟩ : BufTy).Contents (Elt F) → (⟨S1x10, .f32⟩ : BufTy).Contents (Elt F)),
    unary main_v125 main_v126 (broadcastInDim S8192x10 ![0, 1] bcast_S1x10_S8192x10_0_1 : (⟨S1x10, .f32⟩ : BufTy).Contents (Elt F) → (⟨S8192x10, .f32⟩ : BufTy).Contents (Elt F)),
    binary main_v124 main_v126 main_v127 (addf : (⟨S8192x10, .f32⟩ : BufTy).Contents (Elt F) → (⟨S8192x10, .f32⟩ : BufTy).Contents (Elt F) → (⟨S8192x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig := by
  simp only [List.Forall, nullary_bufs_sub, unary_bufs_sub, binary_bufs_sub, ternary_bufs_sub, and_self]

abbrev args : List (Ref sig .tc) := [main_arg0, main_arg1, main_arg2, main_arg3, main_arg4, main_arg5, main_arg6,
  main_arg7, main_arg8, main_arg9, main_arg10, main_arg11, main_arg12]

set_option maxRecDepth 8192 in
/-- Every operation writes its one result buffer, and none of these is an argument. -/
theorem ops_writes : (ops : List (HloOp τ sig (Elt F))).Forall fun op => ∀ b ∈ args, Proc.devRef .tc b ∉ op.writes := by
  simp only [List.Forall, nullary_writes, unary_writes, binary_writes, ternary_writes, Finset.mem_singleton,
    (Proc.devRef_injective (τ := τ) (sig := sig) .tc).eq_iff]
  repeat' apply And.intro
  all_goals decide

theorem arg_kept (V : Valuation τ sig (Elt F)) {b : Ref sig .tc} (hb : b ∈ args) :
    after ops V (Proc.devRef .tc b) = V (Proc.devRef .tc b) :=
  after_of_forall_not_mem ops V fun op hop => List.forall_iff_forall_mem.mp ops_writes op hop b hb

set_option maxRecDepth 8192 in
def res_main_v127 (m : (ℓ : Loc nD τ sig) → Buf (Elt F) ℓ) (c : Dev nD) : Buf (Elt F) ((c.tc : Thread nD τ).loc main_v127) :=
  Cert.ReferenceIdeal.ReadP.val_main_v127 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

set_option maxRecDepth 8192 in
set_option maxHeartbeats 73200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127) = res_main_v127 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c main_v127).trans (by after_results_simp <;> rfl <;> (unfold res_main_v127; rfl)),
      (List.forall_iff_forall_mem (l := args) (p := fun b => r.2.mem ((c.tc : Thread nD τ).loc b) = m ((c.tc : Thread nD τ).loc b))).mpr
        fun b hb => (h c b).trans (arg_kept _ hb)⟩)
    (run_seq scopedRefs_eq scopedSems_eq defs main (fun _ => ops) main_eq (fun _ => ops_sub) m ρ)

end Cert.ReferenceIdeal.ValueP

end
-- ==== Proof.RefNet.lean ====
/- Each stage of a layer read at an index is the matching function of Cert.Layers; the four layers then chain. -/
import proofs.«147723_j3221225472529_1_alg».proof.Proof.RefRead
import proofs.«147723_j3221225472529_1_alg».proof.Proof.Layers
import Idealize.ShloMosaic.Lib.StackMember
import Idealize.ShloMosaic.Lib.IdealHost
import Idealize.ShloMosaic.Lib.Pipeline.Value

noncomputable section

namespace Cert.ReferenceIdeal.RefValue

open Cert.ReferenceIdeal Cert.ReferenceIdeal.ReadP Cert.Layers Idealize.ShloMosaic Idealize.ShloMosaic.ValueIdx
  Idealize.ShloMosaic.StackMember

variable {M K N : Nat}

theorem val_ite (n : Fin N) : n.val = if N = 1 then 0 else n.val := by
  by_cases h : N = 1
  · subst h; rw [if_pos rfl]; exact Fin.val_eq_zero n
  · rw [if_neg h]

theorem fill_apply {s : Shape} (h : S_.BroadcastsInDim s ![]) (b : BitVec 32) (j : s.Idx) :
    fill (F := Ideal) s h b j = Ideal.ofBits .f32 b :=
  broadcastInDim_scalar_apply h _ j

theorem sgnA_apply {s : Shape} (h : S_.BroadcastsInDim s ![]) (x : Arr Ideal s) (j : s.Idx) :
    sgnA h x j = sgn (x j) := by
  simp only [sgnA, id_eq, select_apply, cmpf_apply, fill_apply]
  rfl

theorem mmA_eq (x : Arr Ideal ⟨2, ![M, K]⟩) (w : Arr Ideal ⟨2, ![N, K]⟩) (hb ht) : mmA x w hb ht = mm x w := by
  funext j
  obtain ⟨a, n, rfl⟩ : ∃ (a : Fin M) (n : Fin N), j = ix2 a n := ⟨j 0, j 1, eq_ix2 j⟩
  unfold mmA
  rw [dotGeneral_plain_apply]
  show _ = ∑ k : Fin K, x (ix2 a k) * sgn (w (ix2 n k))
  refine Finset.sum_congr rfl fun k _ => ?_
  rw [transpose_apply [1, 0] _ ht (ix2 k n) (ix2 n k) (fun c => match c with | ⟨0, _⟩ => rfl | ⟨1, _⟩ => rfl),
    sgnA_apply]

section Norm

variable (h : Arr Ideal ⟨2, ![M, N]⟩) (g b : Arr Ideal ⟨1, ![N]⟩)
  (hr : (⟨2, ![M, N]⟩ : Shape).ReducesTo [0] ⟨1, ![N]⟩) (h0 : S_.BroadcastsInDim ⟨1, ![N]⟩ ![])
  (h1 : (⟨1, ![N]⟩ : Shape).BroadcastsInDim ⟨2, ![1, N]⟩ ![1])
  (h2 : (⟨2, ![1, N]⟩ : Shape).BroadcastsInDim ⟨2, ![M, N]⟩ ![0, 1])

theorem rowsA_apply (v : Arr Ideal ⟨1, ![N]⟩) (a : Fin M) (n : Fin N) : rowsA h1 h2 v (ix2 a n) = v (ix1 n) := by
  unfold rowsA
  rw [broadcastInDim_apply _ h2 _ (ix2 a n) (ix2 0 n)
      (fun c => match c with | ⟨0, _⟩ => (if_pos rfl).symm | ⟨1, _⟩ => val_ite n),
    broadcastInDim_apply _ h1 _ (ix2 0 n) (ix1 n) (fun c => match c with | ⟨0, _⟩ => val_ite n)]

theorem meanA_apply (n : Fin N) : meanA h hr h0 (ix1 n) = colMean h n := by
  unfold meanA colMean
  rw [hostDivf_apply, fill_apply, hostReduceAdd_apply, Ideal.hostReduceAdd_single hr ⟨hr.1, Nat.one_pos, hr.2⟩]
  show Ideal.div (Ideal.ofBits .f32 0x00000000#32 + ∑ k : Fin M, h _) batchW = _
  rw [Ideal.ofBits_zero_f32, zero_add]
  exact congrArg (Ideal.div · batchW) (Finset.sum_congr rfl fun k _ => congrArg h
    (funext fun c => Fin.ext (by match c with | ⟨0, _⟩ => rfl | ⟨1, _⟩ => rfl)))

theorem devA_apply (a : Fin M) (n : Fin N) : devA h hr h0 h1 h2 (ix2 a n) = h (ix2 a n) - colMean h n := by
  unfold devA
  rw [subf_apply, rowsA_apply, meanA_apply]

theorem varA_apply (n : Fin N) : varA h hr h0 h1 h2 (ix1 n) = colVar h n := by
  unfold varA
  rw [meanA_apply]
  exact congrArg (Ideal.div · batchW) (Finset.sum_congr rfl fun i _ => by rw [mulf_apply, devA_apply])

theorem bnA_eq : bnA h g b hr h0 h1 h2 = bn h g b := by
  funext j
  obtain ⟨a, n, rfl⟩ : ∃ (a : Fin M) (n : Fin N), j = ix2 a n := ⟨j 0, j 1, eq_ix2 j⟩
  unfold bnA
  rw [addf_apply, mulf_apply, devA_apply, rowsA_apply, rowsA_apply, mulf_apply]
  show _ * (_ * Ideal.rsqrt (varA h hr h0 h1 h2 (ix1 n) + fill (F := Ideal) _ h0 _ (ix1 n))) + _ = _
  rw [varA_apply, fill_apply]
  rfl

theorem bnSgnA_eq (hs) : bnSgnA h g b hr h0 h1 h2 hs = bnSgn h g b := by
  funext j
  unfold bnSgnA
  rw [sgnA_apply, bnA_eq]
  rfl

end Norm

theorem val_eq_net (x0 : (⟨S8192x784, .f32⟩ : BufTy).Contents (Elt Ideal))
    (x1 : (⟨S4096x784, .f32⟩ : BufTy).Contents (Elt Ideal))
    (x2 x3 : (⟨S4096x4096, .f32⟩ : BufTy).Contents (Elt Ideal))
    (x4 : (⟨S10x4096, .f32⟩ : BufTy).Contents (Elt Ideal))
    (x5 x6 x7 x8 x9 x10 : (⟨S4096, .f32⟩ : BufTy).Contents (Elt Ideal))
    (x11 x12 : (⟨S10, .f32⟩ : BufTy).Contents (Elt Ideal)) :
    Cert.ReferenceIdeal.ReadP.val_main_v127 (F := Ideal) x0 x1 x2 x3 x4 x5 x6 x7 x8 x9 x10 x11 x12
      = Cert.Layers.net x0 x1 x2 x3 x4 x5 x6 x7 x8 x9 x10 x11 x12 := by
  unfold val_main_v127 net
  simp only [mmA_eq, bnSgnA_eq, bnA_eq]

end Cert.ReferenceIdeal.RefValue

end
-- ==== Proof.lean ====
import proofs.«147723_j3221225472529_1_alg».proof.Defs
import proofs.«147723_j3221225472529_1_alg».proof.Proof.Gen.Kernel
import proofs.«147723_j3221225472529_1_alg».proof.Proof.Gen.KernelIdeal
import proofs.«147723_j3221225472529_1_alg».proof.Proof.Gen.ReferenceIdeal
import proofs.«147723_j3221225472529_1_alg».proof.Proof.Gen.Pre_finite_inputs
import proofs.«147723_j3221225472529_1_alg».proof.Proof.KB.FoldArgs
import proofs.«147723_j3221225472529_1_alg».proof.Proof.KI.FoldArgs
import proofs.«147723_j3221225472529_1_alg».proof.Proof.KI.ValueKI
import proofs.«147723_j3221225472529_1_alg».proof.Proof.KI.MmVal0
import proofs.«147723_j3221225472529_1_alg».proof.Proof.KI.MmVal2
import proofs.«147723_j3221225472529_1_alg».proof.Proof.KI.MmVal4
import proofs.«147723_j3221225472529_1_alg».proof.Proof.KI.MmVal6
import proofs.«147723_j3221225472529_1_alg».proof.Proof.RefRun
import proofs.«147723_j3221225472529_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ =>
  (θ_run Cert.Kernel.defs _ _).mono (fun r h c => Cert.Kernel.Fr.args_kept m c (h c)) (Cert.Kernel.Fr.runF m ρ)

theorem frame_ki : Cert.frame_KernelIdeal := fun m ρ _ =>
  (θ_run Cert.KernelIdeal.defs _ _).mono (fun r h c => Cert.KernelIdeal.Fr.args_kept m c (h c)) (Cert.KernelIdeal.Fr.runF m ρ)

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the network of the launch arguments: regrouping the products' sums is all that differs. -/
theorem algebraic : Cert.algebraic_KernelIdeal_ReferenceIdeal := by
  intro m ρ m' ρ' _ hagree
  refine ⟨fun c => Cert.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨
      (h c _ (Cert.KernelIdeal.Fr.mem_ucF Cert.KernelIdeal.main_v15 (by decide))).trans
        (Cert.KernelIdeal.Fr.kernel_value m Cert.KernelIdeal.Fr.final0 Cert.KernelIdeal.Fr.final2 Cert.KernelIdeal.Fr.final4 Cert.KernelIdeal.Fr.final6 c),
      Cert.KernelIdeal.Fr.args_kept m c (h c)⟩) (Cert.KernelIdeal.Fr.runF m ρ)
  · refine (θ_run Cert.ReferenceIdeal.defs _ _).mono (fun r h c => ⟨(h c).1.trans ?_, (h c).2⟩)
      (Cert.ReferenceIdeal.ValueP.run (F := Ideal) m' ρ')
    unfold Cert.ReferenceIdeal.ValueP.res_main_v127
    rw [Cert.ReferenceIdeal.RefValue.val_eq_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
